-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S3x64x10 : Shape := ⟨3, ![3, 64, 10]⟩
abbrev S3x10 : Shape := ⟨2, ![3, 10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x10 : S_.BroadcastsInDim S3x64x10 (![] : Fin 0 → Fin S3x64x10.rank)
  reducesTo_S3x64x10_S_d0_1_2 : S3x64x10.ReducesTo [0, 1, 2] S_
  bcast_S_S3x10 : S_.BroadcastsInDim S3x10 (![] : Fin 0 → Fin S3x10.rank)
  reducesTo_S3x10_S_d0_1 : S3x10.ReducesTo [0, 1] S_

variable [Facts]

def fn_part2 {F : FTy → Type} [FloatOps F] (main_arg9 : FVec F S3x64x10 .f32) (main_arg10 : FVec F S3x10 .f32) (main_v33 : IVec S_ 1) : IVec S_ 1 :=
  let main_v34 : FVec F S3x64x10 .f32 := Host.absf main_arg9
  let main_cst_12 : FVec F S_ .f32 := constant S_ .f32 0x7F800000#32
  let main_v35 : FVec F S3x64x10 .f32 := broadcastInDim S3x64x10 ![] bcast_S_S3x64x10 main_cst_12
  let main_v36 : IVec S3x64x10 1 := cmpf .olt main_v34 main_v35
  let main_c_13 : IVec S_ 1 := constantI S_ 1 1#1
  let main_v37 : IVec S_ 1 := (fun x v => Host.reduce IntOp.andi x v reducesTo_S3x64x10_S_d0_1_2 h_S_) main_v36 main_c_13
  let main_v38 : IVec S_ 1 := andi main_v33 main_v37
  let main_v39 : FVec F S3x10 .f32 := Host.absf main_arg10
  let main_cst_14 : FVec F S_ .f32 := constant S_ .f32 0x7F800000#32
  let main_v40 : FVec F S3x10 .f32 := broadcastInDim S3x10 ![] bcast_S_S3x10 main_cst_14
  let main_v41 : IVec S3x10 1 := cmpf .olt main_v39 main_v40
  let main_c_15 : IVec S_ 1 := constantI S_ 1 1#1
  let main_v42 : IVec S_ 1 := (fun x v => Host.reduce IntOp.andi x v reducesTo_S3x10_S_d0_1 h_S_) main_v41 main_c_15
  let main_v43 : IVec S_ 1 := andi main_v38 main_v42
  main_v43

def fn_part1 {F : FTy → Type} [FloatOps F] (main_arg6 : FVec F S3x64 .f32) (main_arg7 : FVec F S3x64x64 .f32) (main_arg8 : FVec F S3x64 .f32) (main_arg9 : FVec F S3x64x10 .f32) (main_arg10 : FVec F S3x10 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64 .f32) (main_arg6 : FVec F S3x64 .f32) (main_arg7 : FVec F S3x64x64 .f32) (main_arg8 : FVec F S3x64 .f32) (main_arg9 : FVec F S3x64x10 .f32) (main_arg10 : FVec F S3x10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S3x64x10 : Shape := ⟨3, ![3, 64, 10]⟩
abbrev S3x10 : Shape := ⟨2, ![3, 10]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S128x10 : Shape := ⟨2, ![128, 10]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S128x64 : Shape := ⟨2, ![128, 64]⟩
abbrev S5000x1 : Shape := ⟨2, ![5000, 1]⟩
abbrev S1x128 : Shape := ⟨2, ![1, 128]⟩
abbrev S5000x128 : Shape := ⟨2, ![5000, 128]⟩
abbrev S1x64x10 : Shape := ⟨3, ![1, 64, 10]⟩
abbrev S64x10 : Shape := ⟨2, ![64, 10]⟩
abbrev S1x10 : Shape := ⟨2, ![1, 10]⟩
abbrev S10 : Shape := ⟨1, ![10]⟩

abbrev nBuf : Space → Nat
  | .hbm => 174
  | .vmem => 63
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S3x64x10, .f32⟩
  | 10 => ⟨S3x10, .f32⟩
  | 11 => ⟨S1x1600000, .i32⟩
  | 12 => ⟨S1600000, .i32⟩
  | 13 => ⟨S1x1600000, .i32⟩
  | 14 => ⟨S1600000, .i32⟩
  | 15 => ⟨S100000x1, .i32⟩
  | 16 => ⟨S_, .f32⟩
  | 17 => ⟨S128x10, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S100000x64, .f32⟩
  | 32 => ⟨S1x64x64, .f32⟩
  | 33 => ⟨S64x64, .f32⟩
  | 34 => ⟨S1x64, .f32⟩
  | 35 => ⟨S64, .f32⟩
  | 36 => ⟨S1x64, .f32⟩
  | 37 => ⟨S100000x64, .f32⟩
  | 38 => ⟨S1x64, .f32⟩
  | 39 => ⟨S1x64, .f32⟩
  | 40 => ⟨S_, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S1x64, .f32⟩
  | 47 => ⟨S1x64, .f32⟩
  | 48 => ⟨S1x64, .f32⟩
  | 49 => ⟨S64, .f32⟩
  | 50 => ⟨S1x64, .f32⟩
  | 51 => ⟨S1x64, .f32⟩
  | 52 => ⟨S64, .f32⟩
  | 53 => ⟨S1x64, .f32⟩
  | 54 => ⟨S1x64x64, .f32⟩
  | 55 => ⟨S64x64, .f32⟩
  | 56 => ⟨S1x64, .f32⟩
  | 57 => ⟨S64, .f32⟩
  | 58 => ⟨S1x64, .f32⟩
  | 59 => ⟨S100000x64, .f32⟩
  | 60 => ⟨S128x64, .f32⟩
  | 61 => ⟨S1x64x10, .f32⟩
  | 62 => ⟨S64x10, .f32⟩
  | 63 => ⟨S1x10, .f32⟩
  | 64 => ⟨S10, .f32⟩
  | 65 => ⟨S1x10, .f32⟩
  | 66 => ⟨S128x10, .f32⟩
  | 67 => ⟨S128x10, .f32⟩
  | 68 => ⟨S128x10, .f32⟩
  | 69 => ⟨S128x10, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S100000x64, .f32⟩
  | 84 => ⟨S1x64x64, .f32⟩
  | 85 => ⟨S64x64, .f32⟩
  | 86 => ⟨S1x64, .f32⟩
  | 87 => ⟨S64, .f32⟩
  | 88 => ⟨S1x64, .f32⟩
  | 89 => ⟨S100000x64, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S_, .f32⟩
  | 96 => ⟨S1x64, .f32⟩
  | 97 => ⟨S1x64, .f32⟩
  | 98 => ⟨S1x64, .f32⟩
  | 99 => ⟨S1x64, .f32⟩
  | 100 => ⟨S1x64, .f32⟩
  | 101 => ⟨S64, .f32⟩
  | 102 => ⟨S1x64, .f32⟩
  | 103 => ⟨S1x64, .f32⟩
  | 104 => ⟨S64, .f32⟩
  | 105 => ⟨S1x64, .f32⟩
  | 106 => ⟨S1x64x64, .f32⟩
  | 107 => ⟨S64x64, .f32⟩
  | 108 => ⟨S1x64, .f32⟩
  | 109 => ⟨S64, .f32⟩
  | 110 => ⟨S1x64, .f32⟩
  | 111 => ⟨S100000x64, .f32⟩
  | 112 => ⟨S128x64, .f32⟩
  | 113 => ⟨S1x64x10, .f32⟩
  | 114 => ⟨S64x10, .f32⟩
  | 115 => ⟨S1x10, .f32⟩
  | 116 => ⟨S10, .f32⟩
  | 117 => ⟨S1x10, .f32⟩
  | 118 => ⟨S128x10, .f32⟩
  | 119 => ⟨S128x10, .f32⟩
  | 120 => ⟨S128x10, .f32⟩
  | 121 => ⟨S128x10, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x64, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S100000x64, .f32⟩
  | 8 => ⟨S1x64x64, .f32⟩
  | 9 => ⟨S64x64, .f32⟩
  | 10 => ⟨S1x64, .f32⟩
  | 11 => ⟨S64, .f32⟩
  | 12 => ⟨S1x64, .f32⟩
  | 13 => ⟨S100000x64, .f32⟩
  | 14 => ⟨S1x64, .f32⟩
  | 15 => ⟨S1x64, .f32⟩
  | 16 => ⟨S_, .f32⟩
  | 17 => ⟨S1x64, .f32⟩
  | 18 => ⟨S1x64, .f32⟩
  | 19 => ⟨S_, .f32⟩
  | 20 => ⟨S1x64, .f32⟩
  | 21 => ⟨S1x64, .f32⟩
  | 22 => ⟨S1x64, .f32⟩
  | 23 => ⟨S1x64, .f32⟩
  | 24 => ⟨S1x64, .f32⟩
  | 25 => ⟨S64, .f32⟩
  | 26 => ⟨S1x64, .f32⟩
  | 27 => ⟨S1x64, .f32⟩
  | 28 => ⟨S64, .f32⟩
  | 29 => ⟨S1x64, .f32⟩
  | 30 => ⟨S1x64x64, .f32⟩
  | 31 => ⟨S64x64, .f32⟩
  | 32 => ⟨S1x64, .f32⟩
  | 33 => ⟨S64, .f32⟩
  | 34 => ⟨S1x64, .f32⟩
  | 35 => ⟨S100000x64, .f32⟩
  | 36 => ⟨S128x64, .f32⟩
  | 37 => ⟨S1x64x10, .f32⟩
  | 38 => ⟨S64x10, .f32⟩
  | 39 => ⟨S1x10, .f32⟩
  | 40 => ⟨S10, .f32⟩
  | 41 => ⟨S1x10, .f32⟩
  | 42 => ⟨S128x10, .f32⟩
  | 43 => ⟨S128x10, .f32⟩
  | 44 => ⟨S128x10, .f32⟩
  | 45 => ⟨S128x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S1x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x1, .i32⟩
  | .local _ .vmem, ⟨17, _⟩ => ⟨S5000x1, .i32⟩
  | .local _ .vmem, ⟨18, _⟩ => ⟨S5000x64, .f32⟩
  | .local _ .vmem, ⟨19, _⟩ => ⟨S5000x64, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S1x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S64x64, .f32⟩
  | .local _ .vmem, ⟨36, _⟩ => ⟨S1x64, .f32⟩
  | .local _ .vmem, ⟨37, _⟩ => ⟨S5000x1, .i32⟩
  | .local _ .vmem, ⟨38, _⟩ => ⟨S5000x1, .i32⟩
  | .local _ .vmem, ⟨39, _⟩ => ⟨S5000x64, .f32⟩
  | .local _ .vmem, ⟨40, _⟩ => ⟨S5000x64, .f32⟩
  | .local _ .vmem, ⟨41, _⟩ => ⟨S128x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S1x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S64x64, .f32⟩
  | .local _ .vmem, ⟨57, _⟩ => ⟨S1x64, .f32⟩
  | .local _ .vmem, ⟨58, _⟩ => ⟨S5000x1, .i32⟩
  | .local _ .vmem, ⟨59, _⟩ => ⟨S5000x1, .i32⟩
  | .local _ .vmem, ⟨60, _⟩ => ⟨S5000x64, .f32⟩
  | .local _ .vmem, ⟨61, _⟩ => ⟨S5000x64, .f32⟩
  | .local _ .vmem, ⟨62, _⟩ => ⟨S128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66_0 : Ref sig .tc := ⟨.hbm, 89, rfl⟩
abbrev main_v66_1 : Ref sig .tc := ⟨.hbm, 90, rfl⟩
abbrev main_v66_2 : Ref sig .tc := ⟨.hbm, 91, rfl⟩
abbrev main_cst_7 : Ref sig .tc := ⟨.hbm, 92, rfl⟩
abbrev main_v67 : Ref sig .tc := ⟨.hbm, 93, rfl⟩
abbrev main_v68 : Ref sig .tc := ⟨.hbm, 94, rfl⟩
abbrev main_cst_8 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84_0 : Ref sig .tc := ⟨.hbm, 111, rfl⟩
abbrev main_v84_1 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_9 : Ref sig .tc := ⟨.hbm, 122, rfl⟩
abbrev main_v94 : Ref sig .tc := ⟨.hbm, 123, rfl⟩
abbrev main_v95 : Ref sig .tc := ⟨.hbm, 124, rfl⟩
abbrev main_c_10 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_11 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110_0 : Ref sig .tc := ⟨.hbm, 141, rfl⟩
abbrev main_v110_1 : Ref sig .tc := ⟨.hbm, 142, rfl⟩
abbrev main_v110_2 : Ref sig .tc := ⟨.hbm, 143, rfl⟩
abbrev main_cst_12 : Ref sig .tc := ⟨.hbm, 144, rfl⟩
abbrev main_v111 : Ref sig .tc := ⟨.hbm, 145, rfl⟩
abbrev main_v112 : Ref sig .tc := ⟨.hbm, 146, rfl⟩
abbrev main_cst_13 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128_0 : Ref sig .tc := ⟨.hbm, 163, rfl⟩
abbrev main_v128_1 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc3_stg8_0 : Ref sig .tc := ⟨.vmem, 39, rfl⟩
abbrev cc3_stg8_1 : Ref sig .tc := ⟨.vmem, 40, rfl⟩
abbrev cc3_stg9_0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg5_0 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc5_stg8_0 : Ref sig .tc := ⟨.vmem, 60, rfl⟩
abbrev cc5_stg8_1 : Ref sig .tc := ⟨.vmem, 61, rfl⟩
abbrev cc5_stg9_0 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem5_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc3_sem8_0 : DmaSem sig := 39
abbrev cc3_sem8_1 : DmaSem sig := 40
abbrev cc3_sem9_0 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47
abbrev cc4_sem4_0 : DmaSem sig := 48
abbrev cc4_sem5_0 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc5_sem8_0 : DmaSem sig := 60
abbrev cc5_sem8_1 : DmaSem sig := 61
abbrev cc5_sem9_0 : DmaSem sig := 62

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .i32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S128x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x1 .i32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S5000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S128x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S128x10 : S_.BroadcastsInDim S128x10 (![] : Fin 0 → Fin S128x10.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x128_d1_w32 : S1x128.Iotas .tc 32 [1]
  broadcasts_S5000x1_S5000x128 : S5000x1.Broadcasts S5000x128
  broadcasts_S1x128_S5000x128 : S1x128.Broadcasts S5000x128
  natLt_1_32 : 1 < 32
  shapeCasts_S128x64_S128x64 : S128x64.ShapeCasts S128x64
  slices_S3x64x10_S1x64x10_0_0_0 : S3x64x10.Slices ![0, 0, 0] S1x64x10
  shapeCasts_S1x64x10_S64x10 : S1x64x10.ShapeCasts S64x10
  slices_S3x10_S1x10_0_0 : S3x10.Slices ![0, 0] S1x10
  shapeCasts_S1x10_S10 : S1x10.ShapeCasts S10
  shapeCasts_S10_S1x10 : S10.ShapeCasts S1x10
  bcast_S1x10_S128x10_0_1 : S1x10.BroadcastsInDim S128x10 (![0, 1] : Fin 2 → Fin S128x10.rank)
  slices_S3x64x64_S1x64x64_1_0_0 : S3x64x64.Slices ![1, 0, 0] S1x64x64
  slices_S3x64_S1x64_1_0 : S3x64.Slices ![1, 0] S1x64
  slices_S3x64x10_S1x64x10_1_0_0 : S3x64x10.Slices ![1, 0, 0] S1x64x10
  slices_S3x10_S1x10_1_0 : S3x10.Slices ![1, 0] S1x10
  slices_S3x64x64_S1x64x64_2_0_0 : S3x64x64.Slices ![2, 0, 0] S1x64x64
  slices_S3x64_S1x64_2_0 : S3x64.Slices ![2, 0] S1x64
  slices_S3x64x10_S1x64x10_2_0_0 : S3x64x10.Slices ![2, 0, 0] S1x64x10
  slices_S3x10_S1x10_2_0 : S3x10.Slices ![2, 0] S1x10
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .i32 = 32 ∨ (Rect.block (s := S100000x1) S5000x1.size (cc1_transform_7 i) (hinb1_7 i)).WholeWords (EltTy.packing .i32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x64.size a ≤ S128x64.size a
  hwx1_9 : ∀ i : grid1.Coords, EltTy.bits .f32 = 32 ∨ (Rect.block (s := S128x64) S128x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S100000x1.size a
  hwx3_7 : ∀ i : grid3.Coords, EltTy.bits .i32 = 32 ∨ (Rect.block (s := S100000x1) S5000x1.size (cc3_transform_7 i) (hinb3_7 i)).WholeWords (EltTy.packing .i32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S100000x64.size a
  hwx3_8 : ∀ i : grid3.Coords, EltTy.bits .f32 = 32 ∨ (Rect.block (s := S100000x64) S5000x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x64.size a ≤ S128x64.size a
  hwx3_9 : ∀ i : grid3.Coords, EltTy.bits .f32 = 32 ∨ (Rect.block (s := S128x64) S128x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x1.size a ≤ S100000x1.size a
  hwx5_7 : ∀ i : grid5.Coords, EltTy.bits .i32 = 32 ∨ (Rect.block (s := S100000x1) S5000x1.size (cc5_transform_7 i) (hinb5_7 i)).WholeWords (EltTy.packing .i32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x64.size a ≤ S100000x64.size a
  hwx5_8 : ∀ i : grid5.Coords, EltTy.bits .f32 = 32 ∨ (Rect.block (s := S100000x64) S5000x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128x64.size a ≤ S128x64.size a
  hwx5_9 : ∀ i : grid5.Coords, EltTy.bits .f32 = 32 ∨ (Rect.block (s := S128x64) S128x64.size (cc5_transform_9 i) (hinb5_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22_1) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22_2) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S5000x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v40_0) S5000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v40_1) S128x64.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66_1) S1x64.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66_2) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v4) S5000x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v84_0) S5000x64.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v84_1) S128x64.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v104) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v106) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v109) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v110_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v110_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v110_2) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v110_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v112) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v116) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v119) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v122) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v127) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v4) S5000x1.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v128_0) S5000x64.size cc5_transform_8 reads5_8 true false 2 stage5_8 sem5_8
    hrank5 hreads5_8 hinb5_8 nbuf5_8 (Memref.isWhole_whole _) hwx5_8 hstage5_8

abbrev win5_9 : Pipeline.Window sig grid5 :=
  Pipeline.Window.ofSpec (Memref.whole main_v128_1) S128x64.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S3x64x10 : Shape := ⟨3, ![3, 64, 10]⟩
abbrev S3x10 : Shape := ⟨2, ![3, 10]⟩
abbrev S1x1600000 : Shape := ⟨2, ![1, 1600000]⟩
abbrev S1600000 : Shape := ⟨1, ![1600000]⟩
abbrev S_ : Shape := ⟨0, ![]⟩
abbrev S128x10 : Shape := ⟨2, ![128, 10]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1600000x1 : Shape := ⟨2, ![1600000, 1]⟩
abbrev S1600000x64 : Shape := ⟨2, ![1600000, 64]⟩
abbrev S128x64 : Shape := ⟨2, ![128, 64]⟩
abbrev S100000x1 : Shape := ⟨2, ![100000, 1]⟩
abbrev S1x64x10 : Shape := ⟨3, ![1, 64, 10]⟩
abbrev S64x10 : Shape := ⟨2, ![64, 10]⟩
abbrev S1x10 : Shape := ⟨2, ![1, 10]⟩
abbrev S10 : Shape := ⟨1, ![10]⟩

abbrev nBuf : Space → Nat
  | .hbm => 299
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S3x64x64, .f32⟩
  | 8 => ⟨S3x64, .f32⟩
  | 9 => ⟨S3x64x10, .f32⟩
  | 10 => ⟨S3x10, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S128x10, .f32⟩
  | 17 => ⟨S1x64x64, .f32⟩
  | 18 => ⟨S64x64, .f32⟩
  | 19 => ⟨S1x64, .f32⟩
  | 20 => ⟨S64, .f32⟩
  | 21 => ⟨S1x64, .f32⟩
  | 22 => ⟨S64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .i32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S100000x64, .f32⟩
  | 62 => ⟨S_, .f32⟩
  | 63 => ⟨S_, .f32⟩
  | 64 => ⟨S_, .f32⟩
  | 65 => ⟨S_, .f32⟩
  | 66 => ⟨S64, .f32⟩
  | 67 => ⟨S64, .f32⟩
  | 68 => ⟨S64, .f32⟩
  | 69 => ⟨S_, .f32⟩
  | 70 => ⟨S_, .i1⟩
  | 71 => ⟨S_, .f32⟩
  | 72 => ⟨S_, .f32⟩
  | 73 => ⟨S64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S64, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S128x64, .f32⟩
  | 100 => ⟨S100000x1, .i32⟩
  | 101 => ⟨S128x64, .f32⟩
  | 102 => ⟨S1x64x10, .f32⟩
  | 103 => ⟨S64x10, .f32⟩
  | 104 => ⟨S128x10, .f32⟩
  | 105 => ⟨S1x10, .f32⟩
  | 106 => ⟨S10, .f32⟩
  | 107 => ⟨S1x10, .f32⟩
  | 108 => ⟨S128x10, .f32⟩
  | 109 => ⟨S128x10, .f32⟩
  | 110 => ⟨S128x10, .f32⟩
  | 111 => ⟨S1x64x64, .f32⟩
  | 112 => ⟨S64x64, .f32⟩
  | 113 => ⟨S1x64, .f32⟩
  | 114 => ⟨S64, .f32⟩
  | 115 => ⟨S1x64, .f32⟩
  | 116 => ⟨S64, .f32⟩
  | 117 => ⟨S1x64, .f32⟩
  | 118 => ⟨S64, .f32⟩
  | 119 => ⟨S1x64x64, .f32⟩
  | 120 => ⟨S64x64, .f32⟩
  | 121 => ⟨S1x64, .f32⟩
  | 122 => ⟨S64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S64, .f32⟩
  | 15 => ⟨S_, .f32⟩
  | 16 => ⟨S64, .f32⟩
  | 17 => ⟨S64, .f32⟩
  | 18 => ⟨S_, .i32⟩
  | 19 => ⟨S_, .f32⟩
  | 20 => ⟨S64, .f32⟩
  | 21 => ⟨S1x64, .f32⟩
  | 22 => ⟨S_, .f32⟩
  | 23 => ⟨S1x64, .f32⟩
  | 24 => ⟨S1x64, .f32⟩
  | 25 => ⟨S100000x64, .f32⟩
  | 26 => ⟨S100000x64, .f32⟩
  | 27 => ⟨S100000x64, .f32⟩
  | 28 => ⟨S_, .f32⟩
  | 29 => ⟨S_, .f32⟩
  | 30 => ⟨S_, .f32⟩
  | 31 => ⟨S_, .f32⟩
  | 32 => ⟨S64, .f32⟩
  | 33 => ⟨S64, .f32⟩
  | 34 => ⟨S64, .f32⟩
  | 35 => ⟨S_, .f32⟩
  | 36 => ⟨S_, .i1⟩
  | 37 => ⟨S_, .f32⟩
  | 38 => ⟨S_, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S_, .f32⟩
  | 45 => ⟨S64, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S128x64, .f32⟩
  | 66 => ⟨S100000x1, .i32⟩
  | 67 => ⟨S128x64, .f32⟩
  | 68 => ⟨S1x64x10, .f32⟩
  | 69 => ⟨S64x10, .f32⟩
  | 70 => ⟨S128x10, .f32⟩
  | 71 => ⟨S1x10, .f32⟩
  | 72 => ⟨S10, .f32⟩
  | 73 => ⟨S1x10, .f32⟩
  | 74 => ⟨S128x10, .f32⟩
  | 75 => ⟨S128x10, .f32⟩
  | 76 => ⟨S128x10, .f32⟩
  | 77 => ⟨S1x64x64, .f32⟩
  | 78 => ⟨S64x64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S64, .f32⟩
  | 85 => ⟨S1x64x64, .f32⟩
  | 86 => ⟨S64x64, .f32⟩
  | 87 => ⟨S1x64, .f32⟩
  | 88 => ⟨S64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S64, .f32⟩
  | 109 => ⟨S_, .f32⟩
  | 110 => ⟨S64, .f32⟩
  | 111 => ⟨S64, .f32⟩
  | 112 => ⟨S_, .i32⟩
  | 113 => ⟨S_, .f32⟩
  | 114 => ⟨S64, .f32⟩
  | 115 => ⟨S1x64, .f32⟩
  | 116 => ⟨S_, .f32⟩
  | 117 => ⟨S1x64, .f32⟩
  | 118 => ⟨S1x64, .f32⟩
  | 119 => ⟨S100000x64, .f32⟩
  | 120 => ⟨S100000x64, .f32⟩
  | 121 => ⟨S100000x64, .f32⟩
  | 122 => ⟨S_, .f32⟩
  | 123 => ⟨S_, .f32⟩
  | 124 => ⟨S_, .f32⟩
  | 125 => ⟨S_, .f32⟩
  | 126 => ⟨S64, .f32⟩
  | 127 => ⟨S64, .f32⟩
  | _ => ⟨S100000x64, .f32⟩

abbrev hbmTy0_2 (i : Nat) : BufTy := match i % 128 with
  | 0 => ⟨S64, .f32⟩
  | 1 => ⟨S_, .f32⟩
  | 2 => ⟨S_, .i1⟩
  | 3 => ⟨S_, .f32⟩
  | 4 => ⟨S_, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S_, .f32⟩
  | 11 => ⟨S64, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S128x64, .f32⟩
  | 32 => ⟨S100000x1, .i32⟩
  | 33 => ⟨S128x64, .f32⟩
  | 34 => ⟨S1x64x10, .f32⟩
  | 35 => ⟨S64x10, .f32⟩
  | 36 => ⟨S128x10, .f32⟩
  | 37 => ⟨S1x10, .f32⟩
  | 38 => ⟨S10, .f32⟩
  | 39 => ⟨S1x10, .f32⟩
  | 40 => ⟨S128x10, .f32⟩
  | 41 => ⟨S128x10, .f32⟩
  | 42 => ⟨S128x10, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_cst_3 : Ref sig .tc := ⟨.hbm, 69, rfl⟩
abbrev main_call0_v12 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call1_cst : Ref sig .tc := ⟨.hbm, 91, rfl⟩
abbrev main_call1_v0 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_6 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_7 : Ref sig .tc := ⟨.hbm, 123, rfl⟩
abbrev main_v80 : Ref sig .tc := ⟨.hbm, 124, rfl⟩
abbrev main_v81 : Ref sig .tc := ⟨.hbm, 125, rfl⟩
abbrev main_c_8 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_9 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_10 : Ref sig .tc := ⟨.hbm, 141, rfl⟩
abbrev main_v95 : Ref sig .tc := ⟨.hbm, 142, rfl⟩
abbrev main_cst_11 : Ref sig .tc := ⟨.hbm, 143, rfl⟩
abbrev main_v96 : Ref sig .tc := ⟨.hbm, 144, rfl⟩
abbrev main_v97 : Ref sig .tc := ⟨.hbm, 145, rfl⟩
abbrev main_c_12 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_cst_3 : Ref sig .tc := ⟨.hbm, 163, rfl⟩
abbrev main_call2_v12 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_cst_13 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_call3_cst : Ref sig .tc := ⟨.hbm, 185, rfl⟩
abbrev main_call3_v0 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_14 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_c_15 : Ref sig .tc := ⟨.hbm, 217, rfl⟩
abbrev main_v143 : Ref sig .tc := ⟨.hbm, 218, rfl⟩
abbrev main_v144 : Ref sig .tc := ⟨.hbm, 219, rfl⟩
abbrev main_c_16 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_cst_17 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_cst_18 : Ref sig .tc := ⟨.hbm, 235, rfl⟩
abbrev main_v158 : Ref sig .tc := ⟨.hbm, 236, rfl⟩
abbrev main_cst_19 : Ref sig .tc := ⟨.hbm, 237, rfl⟩
abbrev main_v159 : Ref sig .tc := ⟨.hbm, 238, rfl⟩
abbrev main_v160 : Ref sig .tc := ⟨.hbm, 239, rfl⟩
abbrev main_c_20 : Ref sig .tc := ⟨.hbm, 240, rfl⟩
abbrev main_call4_cst : Ref sig .tc := ⟨.hbm, 241, rfl⟩
abbrev main_call4_v0 : Ref sig .tc := ⟨.hbm, 242, rfl⟩
abbrev main_call4_v1 : Ref sig .tc := ⟨.hbm, 243, rfl⟩
abbrev main_call4_cst_0 : Ref sig .tc := ⟨.hbm, 244, rfl⟩
abbrev main_call4_v2 : Ref sig .tc := ⟨.hbm, 245, rfl⟩
abbrev main_call4_v3 : Ref sig .tc := ⟨.hbm, 246, rfl⟩
abbrev main_call4_v4 : Ref sig .tc := ⟨.hbm, 247, rfl⟩
abbrev main_call4_v5 : Ref sig .tc := ⟨.hbm, 248, rfl⟩
abbrev main_call4_v6 : Ref sig .tc := ⟨.hbm, 249, rfl⟩
abbrev main_call4_v7 : Ref sig .tc := ⟨.hbm, 250, rfl⟩
abbrev main_call4_cst_1 : Ref sig .tc := ⟨.hbm, 251, rfl⟩
abbrev main_call4_v8 : Ref sig .tc := ⟨.hbm, 252, rfl⟩
abbrev main_call4_cst_2 : Ref sig .tc := ⟨.hbm, 253, rfl⟩
abbrev main_call4_v9 : Ref sig .tc := ⟨.hbm, 254, rfl⟩
abbrev main_call4_v10 : Ref sig .tc := ⟨.hbm, 255, rfl⟩
abbrev main_call4_v11 : Ref sig .tc := ⟨.hbm, 256, rfl⟩
abbrev main_call4_cst_3 : Ref sig .tc := ⟨.hbm, 257, rfl⟩
abbrev main_call4_v12 : Ref sig .tc := ⟨.hbm, 258, rfl⟩
abbrev main_call4_cst_4 : Ref sig .tc := ⟨.hbm, 259, rfl⟩
abbrev main_call4_call0_v0 : Ref sig .tc := ⟨.hbm, 260, rfl⟩
abbrev main_call4_call0_v1 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_cst_21 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_call5_cst : Ref sig .tc := ⟨.hbm, 279, rfl⟩
abbrev main_call5_v0 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_cst_22 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S128x10 : S_.BroadcastsInDim S128x10 (![] : Fin 0 → Fin S128x10.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S128x64 : S_.BroadcastsInDim S128x64 (![] : Fin 0 → Fin S128x64.rank)
  bcast_S100000_S100000x1_0 : S100000.BroadcastsInDim S100000x1 (![0] : Fin 1 → Fin S100000x1.rank)
  slices_S3x64x10_S1x64x10_0_0_0 : S3x64x10.Slices ![0, 0, 0] S1x64x10
  shapeCasts_S1x64x10_S64x10 : S1x64x10.ShapeCasts S64x10
  slices_S3x10_S1x10_0_0 : S3x10.Slices ![0, 0] S1x10
  shapeCasts_S1x10_S10 : S1x10.ShapeCasts S10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  slices_S3x64x64_S1x64x64_1_0_0 : S3x64x64.Slices ![1, 0, 0] S1x64x64
  slices_S3x64_S1x64_1_0 : S3x64.Slices ![1, 0] S1x64
  slices_S3x64x10_S1x64x10_1_0_0 : S3x64x10.Slices ![1, 0, 0] S1x64x10
  slices_S3x10_S1x10_1_0 : S3x10.Slices ![1, 0] S1x10
  slices_S3x64x64_S1x64x64_2_0_0 : S3x64x64.Slices ![2, 0, 0] S1x64x64
  slices_S3x64_S1x64_2_0 : S3x64.Slices ![2, 0] S1x64
  slices_S3x64x10_S1x64x10_2_0_0 : S3x64x10.Slices ![2, 0, 0] S1x64x10
  slices_S3x10_S1x10_2_0 : S3x10.Slices ![2, 0] S1x10
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x10_S128x10_1_0_0_1_n_n_wf : DotDims.WF S128x64 S64x10 S128x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Mat (a b : Nat) : Type := (⟨2, ![a, b]⟩ : Shape).Idx → EReal

abbrev Tab (a b : Nat) : Type := Fin a → Fin b → EReal

def mk {a b : Nat} (f : Tab a b) : Mat a b := fun i => f (i 0) (i 1)

def tab {a b : Nat} (x : Mat a b) : Tab a b := fun r j => x (ix2 r j)

theorem mk_ix2 {a b : Nat} (f : Tab a b) (r : Fin a) (j : Fin b) : mk f (ix2 r j) = f r j := rfl
theorem tab_mk {a b : Nat} (f : Tab a b) : tab (mk f) = f := rfl
theorem mk_tab {a b : Nat} (x : Mat a b) : mk (tab x) = x := by
  funext i; exact (congrArg x (eq_ix2 i)).symm

abbrev nrows : EReal := Ideal.ofBits .f32 0x47C35000#32
abbrev eps : EReal := Ideal.ofBits .f32 0x3727C5AC#32

def clampRow {N : Nat} (hN : 0 < N) (w : BitVec 32) : Fin N := ⟨min w.toInt.toNat (N - 1), by omega⟩

def wrapN (n : Nat) (v : BitVec 32) : BitVec 32 := if v.toInt < 0 then v + BitVec.ofNat 32 n else v

def lin {n p q : Nat} (a : Tab n p) (W : Tab p q) (b : Fin q → EReal) : Tab n q :=
  fun r j => (∑ k : Fin p, a r k * W k j) + b j

def agg (x : Tab 100000 64) (src dst : Fin 1600000 → BitVec 32) : Tab 100000 64 :=
  fun r j => x r j + ∑ e : Fin 1600000,
    if (dst e).toInt = (r.val : Int) then x (clampRow (N := 100000) (by decide) (wrapN 100000 (src e))) j else 0

def colSum (H : Tab 100000 64) (j : Fin 64) : EReal := ∑ i : Fin 100000, H i j
def colSumSq (H : Tab 100000 64) (j : Fin 64) : EReal := ∑ i : Fin 100000, H i j * H i j
def mean (H : Tab 100000 64) (j : Fin 64) : EReal := Ideal.div (colSum H j) nrows

-- The variance as the mean of squares minus the squared mean; `varR` below is the mean squared deviation.
def varK (H : Tab 100000 64) (j : Fin 64) : EReal := Ideal.div (colSumSq H j) nrows - mean H j * mean H j

def varR (H : Tab 100000 64) (j : Fin 64) : EReal :=
  Ideal.div (∑ i : Fin 100000, (H i j - mean H j) * (H i j - mean H j)) nrows

def bnrelu {n : Nat} (H : Tab n 64) (mu var g bt : Fin 64 → EReal) : Tab n 64 :=
  fun r j => max ((H r j - mu j) * Ideal.rsqrt (var j + eps) * g j + bt j) 0

def pool (batch : Fin 100000 → BitVec 32) (X : Tab 100000 64) : Tab 128 64 :=
  fun g j => ∑ e : Fin 100000, if (batch e).toInt = (g.val : Int) then X e j else 0

structure Params where
  W1 : Tab 64 64
  b1 : Fin 64 → EReal
  g : Fin 64 → EReal
  bt : Fin 64 → EReal
  W2 : Tab 64 64
  b2 : Fin 64 → EReal
  Wo : Tab 64 10
  bo : Fin 10 → EReal

def hid (P : Params) (src dst : Fin 1600000 → BitVec 32) (x : Tab 100000 64) : Tab 100000 64 :=
  lin (agg x src dst) P.W1 P.b1

def nextX (var : Tab 100000 64 → Fin 64 → EReal) (P : Params) (src dst : Fin 1600000 → BitVec 32)
    (x : Tab 100000 64) : Tab 100000 64 :=
  lin (bnrelu (hid P src dst x) (mean (hid P src dst x)) (var (hid P src dst x)) P.g P.bt) P.W2 P.b2

def nextScore (P : Params) (batch : Fin 100000 → BitVec 32) (X : Tab 100000 64) (s : Tab 128 10) : Tab 128 10 :=
  fun g o => s g o + lin (pool batch X) P.Wo P.bo g o

def score (var : Tab 100000 64 → Fin 64 → EReal) (P0 P1 P2 : Params) (src dst : Fin 1600000 → BitVec 32)
    (batch : Fin 100000 → BitVec 32) (x : Tab 100000 64) : Tab 128 10 :=
  nextScore P2 batch (nextX var P2 src dst (nextX var P1 src dst (nextX var P0 src dst x)))
    (nextScore P1 batch (nextX var P1 src dst (nextX var P0 src dst x))
      (nextScore P0 batch (nextX var P0 src dst x) (fun _ _ => 0)))

def IsReal {a b : Nat} (f : Tab a b) : Prop := ∀ r j, ∃ v : ℝ, f r j = (v : EReal)
def IsRealV {a : Nat} (f : Fin a → EReal) : Prop := ∀ j, ∃ v : ℝ, f j = (v : EReal)

structure Params.Real (P : Params) : Prop where
  W1 : IsReal P.W1
  b1 : IsRealV P.b1
  g : IsRealV P.g
  bt : IsRealV P.bt
  W2 : IsReal P.W2
  b2 : IsRealV P.b2
  Wo : IsReal P.Wo
  bo : IsRealV P.bo

abbrev T3 (a b c : Nat) : Type := (⟨3, ![a, b, c]⟩ : Shape).Idx → EReal

def paramsOf (l : Fin 3) (W1 : T3 3 64 64) (b1 g bt : Mat 3 64) (W2 : T3 3 64 64) (b2 : Mat 3 64)
    (Wo : T3 3 64 10) (bo : Mat 3 10) : Params where
  W1 := fun k j => W1 (ix3 l k j)
  b1 := fun j => b1 (ix2 l j)
  g := fun j => g (ix2 l j)
  bt := fun j => bt (ix2 l j)
  W2 := fun k j => W2 (ix3 l k j)
  b2 := fun j => b2 (ix2 l j)
  Wo := fun k o => Wo (ix3 l k o)
  bo := fun o => bo (ix2 l o)

def srcOf (ei : (⟨2, ![2, 1600000]⟩ : Shape).Idx → BitVec 32) (e : Fin 1600000) : BitVec 32 := ei (ix2 0 e)
def dstOf (ei : (⟨2, ![2, 1600000]⟩ : Shape).Idx → BitVec 32) (e : Fin 1600000) : BitVec 32 := ei (ix2 1 e)
def batchOf (b : (⟨1, ![100000]⟩ : Shape).Idx → BitVec 32) (e : Fin 100000) : BitVec 32 := b (ix1 e)

def scoreOf (var : Tab 100000 64 → Fin 64 → EReal) (x : Mat 100000 64)
    (ei : (⟨2, ![2, 1600000]⟩ : Shape).Idx → BitVec 32) (b : (⟨1, ![100000]⟩ : Shape).Idx → BitVec 32)
    (W1 : T3 3 64 64) (b1 g bt : Mat 3 64) (W2 : T3 3 64 64) (b2 : Mat 3 64) (Wo : T3 3 64 10) (bo : Mat 3 10) : Mat 128 10 :=
  mk (score var (paramsOf 0 W1 b1 g bt W2 b2 Wo bo) (paramsOf 1 W1 b1 g bt W2 b2 Wo bo) (paramsOf 2 W1 b1 g bt W2 b2 Wo bo)
    (srcOf ei) (dstOf ei) (batchOf b) (tab x))

end Cert.Spec

end
-- ==== Proof.LibRows.lean ====
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

abbrev Arr2 (N C : Nat) : Type := (⟨2, ![N, C]⟩ : Shape).Idx → EReal

abbrev IdxCol (R : Nat) : Type := (⟨2, ![R, 1]⟩ : Shape).Idx → BitVec 32

def clampRow {N : Nat} (hN : 0 < N) (w : BitVec 32) : Fin N := ⟨min w.toInt.toNat (N - 1), by omega⟩

def wrapN (n : Nat) (v : BitVec 32) : BitVec 32 := if v.toInt < 0 then v + BitVec.ofNat 32 n else v

abbrev rowGatherDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

-- A row gather reads, at (r, j), column j of the row its r-th index names, the index read signed and clamped to the table.
theorem gather_rows_apply {N C R : Nat} (hN : 0 < N)
    (wf : GatherDims.WF ⟨2, ![N, C]⟩ ⟨2, ![R, 1]⟩ ⟨2, ![R, C]⟩ [1] [0] [] [0] [] 1 ![1, C])
    (x : Arr2 N C) (idx : IdxCol R) (r : Fin R) (j : Fin C) :
    Host.gather (rowGatherDims N C R wf) x idx (ix2 r j) = x (ix2 (clampRow hN (idx (ix2 r 0))) j) := by
  unfold Host.gather
  congr 1
  funext a
  refine Fin.ext ?_
  match a with
  | ⟨0, _⟩ =>
    show (rowGatherDims N C R wf).start (ix2 r j) idx 0 + (rowGatherDims N C R wf).batchCoord (ix2 r j) 0
      + (rowGatherDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r j) ⟨List.idxOf (0 : Fin 2) (rowGatherDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowGatherDims N C R wf).start (ix2 r j) idx 1 + (rowGatherDims N C R wf).batchCoord (ix2 r j) 1
      + (rowGatherDims N C R wf).offCoord (ix2 r j) 1 = j.val
    rw [GatherDims.batchCoord_eq_zero _ _ _ List.not_mem_nil]
    have hs : (rowGatherDims N C R wf).start (ix2 r j) idx 1 = 0 := by
      unfold GatherDims.start
      rw [dif_neg (show (1 : Fin 2) ∉ [(0 : Fin 2)] by decide)]
    have hk : (1 : Fin 2) ∈ (rowGatherDims N C R wf).sKept :=
      (GatherDims.mem_sKept _ _).mpr ⟨(show (1 : Fin 2) ∉ [(0 : Fin 2)] by decide), List.not_mem_nil⟩
    have ho : (rowGatherDims N C R wf).offCoord (ix2 r j) 1 = j.val := by
      unfold GatherDims.offCoord
      rw [dif_pos hk]
      rfl
    rw [hs, ho]
    simp only [Nat.add_zero, Nat.zero_add]

theorem start_rows0 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 0 = (idx (ix2 k 0)).toInt := by
  unfold ScatterDims.start
  rw [dif_pos (show (0 : Fin 2) ∈ (rowScatterDims N C R wf).scatterDimsToOperandDims from List.mem_singleton.mpr rfl)]
  have hsi : (rowScatterDims N C R wf).siIdx (ix2 k b) ⟨List.idxOf (0 : Fin 2) (rowScatterDims N C R wf).scatterDimsToOperandDims,
      List.idxOf_lt_length_iff.2 (List.mem_singleton.mpr rfl)⟩ = ix2 k 0 := by
    funext c; refine Fin.ext ?_
    match c with
    | ⟨0, _⟩ => rfl
    | ⟨1, _⟩ => rfl
  rw [hsi]

theorem start_rows1 {N C R : Nat} (wf : ScatterDims.WF ⟨2, ![N, C]⟩ ⟨2, ![R, 1]⟩ ⟨2, ![R, C]⟩ [1] [0] [0] 1)
    (idx : IdxCol R) (k : Fin R) (b : Fin C) :
    (rowScatterDims N C R wf).start (ix2 k b) idx 1 = 0 := by
  unfold ScatterDims.start
  rw [dif_neg (show (1 : Fin 2) ∉ [(0 : Fin 2)] by decide)]

theorem window_rows0 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 0 = 0 := by
  unfold ScatterDims.window
  rw [dif_neg (show (0 : Fin 2) ∉ (rowScatterDims N C R wf).sKept by
    simp [ScatterDims.sKept, Shape.kept, List.mem_filter])]

theorem window_rows1 {N C R : Nat} (wf : ScatterDims.WF ⟨2, ![N, C]⟩ ⟨2, ![R, 1]⟩ ⟨2, ![R, C]⟩ [1] [0] [0] 1)
    (k : Fin R) (b : Fin C) : (rowScatterDims N C R wf).window (ix2 k b) 1 = b.val := by
  unfold ScatterDims.window
  rw [dif_pos (show (1 : Fin 2) ∈ (rowScatterDims N C R wf).sKept by
    simp [ScatterDims.sKept, Shape.kept, List.mem_filter, List.mem_finRange])]
  rfl

theorem resultIdx_rows {N C R : Nat} (wf : ScatterDims.WF ⟨2, ![N, C]⟩ ⟨2, ![R, 1]⟩ ⟨2, ![R, C]⟩ [1] [0] [0] 1)
    (idx : IdxCol R) (k : Fin R) (b : Fin C) (v : Fin N) (j : Fin C) :
    ((rowScatterDims N C R wf).resultIdx? (ix2 k b) idx = some (ix2 v j))
      ↔ ((idx (ix2 k 0)).toInt = (v.val : Int) ∧ j = b) := by
  have hv : v.val < N := v.isLt
  have hb : b.val < C := b.isLt
  unfold ScatterDims.resultIdx?
  split
  · rename_i h
    rw [Option.some.injEq]
    constructor
    · intro hf
      have h0 : ((rowScatterDims N C R wf).start (ix2 k b) idx 0
          + ((rowScatterDims N C R wf).window (ix2 k b) 0 : Nat)).toNat = v.val := congrArg (fun f => (f 0).val) hf
      have h1 : ((rowScatterDims N C R wf).start (ix2 k b) idx 1
          + ((rowScatterDims N C R wf).window (ix2 k b) 1 : Nat)).toNat = j.val := congrArg (fun f => (f 1).val) hf
      have g0 := (h 0).1
      simp only [start_rows0, start_rows1, window_rows0, window_rows1] at h0 h1 g0
      refine ⟨?_, Fin.ext ?_⟩
      · omega
      · omega
    · rintro ⟨h0, h1⟩
      have h1' : j.val = b.val := congrArg Fin.val h1
      funext a
      refine Fin.ext ?_
      match a with
      | ⟨0, _⟩ =>
        show ((rowScatterDims N C R wf).start (ix2 k b) idx 0 + ((rowScatterDims N C R wf).window (ix2 k b) 0 : Nat)).toNat = v.val
        rw [start_rows0, window_rows0]
        omega
      | ⟨1, _⟩ =>
        show ((rowScatterDims N C R wf).start (ix2 k b) idx 1 + ((rowScatterDims N C R wf).window (ix2 k b) 1 : Nat)).toNat = j.val
        rw [start_rows1, window_rows1]
        omega
  · rename_i h
    constructor
    · intro hf
      exact absurd hf (by simp)
    · rintro ⟨h0, h1⟩
      have h1' : j.val = b.val := congrArg Fin.val h1
      exfalso
      apply h
      intro a
      match a with
      | ⟨0, _⟩ =>
        show 0 ≤ (rowScatterDims N C R wf).start (ix2 k b) idx 0 + ((rowScatterDims N C R wf).window (ix2 k b) 0 : Nat)
          ∧ (rowScatterDims N C R wf).start (ix2 k b) idx 0 + ((rowScatterDims N C R wf).window (ix2 k b) 0 : Nat) < (N : Int)
        rw [start_rows0, window_rows0]
        omega
      | ⟨1, _⟩ =>
        show 0 ≤ (rowScatterDims N C R wf).start (ix2 k b) idx 1 + ((rowScatterDims N C R wf).window (ix2 k b) 1 : Nat)
          ∧ (rowScatterDims N C R wf).start (ix2 k b) idx 1 + ((rowScatterDims N C R wf).window (ix2 k b) 1 : Nat) < (C : Int)
        rw [start_rows1, window_rows1]
        omega

-- A row scatter-add leaves in row r what was there plus every update whose index is r.
theorem scatterAdd_rows_apply {N C R : Nat} (wf : ScatterDims.WF ⟨2, ![N, C]⟩ ⟨2, ![R, 1]⟩ ⟨2, ![R, C]⟩ [1] [0] [0] 1)
    (x : Arr2 N C) (idx : IdxCol R) (u : Arr2 R C) (v : Fin N) (j : Fin C) :
    Host.scatterAdd (F := Ideal) (φ := .f32) (rowScatterDims N C R wf) x idx u (ix2 v j)
      = x (ix2 v j) + ∑ e : Fin R, if (idx (ix2 e 0)).toInt = (v.val : Int) then u (ix2 e j) else 0 := by
  show x (ix2 v j) + ∑ q ∈ Finset.univ.filter (fun q => (rowScatterDims N C R wf).resultIdx? q idx = some (ix2 v j)), u q
    = x (ix2 v j) + ∑ e : Fin R, if (idx (ix2 e 0)).toInt = (v.val : Int) then u (ix2 e j) else 0
  congr 1
  rw [Finset.sum_filter, sum_idx2]
  refine Finset.sum_congr rfl fun k _ => ?_
  simp only [resultIdx_rows wf idx k _ v j]
  by_cases h : (idx (ix2 k 0)).toInt = (v.val : Int)
  · simp only [h, true_and, Finset.sum_ite_eq, Finset.mem_univ, if_true]
  · simp only [h, false_and, if_false, Finset.sum_const_zero]

theorem wrap_word (n : Nat) (v : BitVec 32) :
    Scalar.select (IntOp.cmpi .slt v 0#32) (IntOp.addi v (BitVec.ofNat 32 n)) v = wrapN n v := by
  unfold Scalar.select IntOp.cmpi IntOp.addi wrapN
  by_cases h : v.toInt < 0
  · have hs : v.slt 0#32 = true := by simp [BitVec.slt, h]
    simp only [hs, if_pos h]
    rfl
  · have hs : v.slt 0#32 = false := by simp [BitVec.slt, h]
    simp only [hs, if_neg h]
    rfl

abbrev plainDot (n p q : Nat) (wf : DotDims.WF ⟨2, ![n, p]⟩ ⟨2, ![p, q]⟩ ⟨2, ![n, q]⟩ [1] [0] [0] [1] [] []) :
    DotDims ⟨2, ![n, p]⟩ ⟨2, ![p, q]⟩ ⟨2, ![n, q]⟩ where
  lhsContracting := [1]
  rhsContracting := [0]
  lhsNonContracting := [0]
  rhsNonContracting := [1]
  lhsBatch := []
  rhsBatch := []
  wf := wf

section Dot
variable {n p q : Nat} (wf : DotDims.WF ⟨2, ![n, p]⟩ ⟨2, ![p, q]⟩ ⟨2, ![n, q]⟩ [1] [0] [0] [1] [] [])

theorem lhs_plain_0 (j : (⟨2, ![n, q]⟩ : Shape).Idx) (k : (plainDot n p q wf).contr.Idx) :
    ((plainDot n p q wf).lhsIdx j k 0).val = (j 0).val := by
  unfold DotDims.lhsIdx
  rw [dif_neg (show ¬ (0 : Fin 2) ∈ (plainDot n p q wf).lhsBatch from List.not_mem_nil),
    dif_pos (show (0 : Fin 2) ∈ (plainDot n p q wf).lhsNonContracting from List.mem_singleton.mpr rfl)]
  rfl

theorem lhs_plain_1 (j : (⟨2, ![n, q]⟩ : Shape).Idx) (k : (plainDot n p q wf).contr.Idx) :
    ((plainDot n p q wf).lhsIdx j k 1).val = (k ⟨0, Nat.one_pos⟩).val :=
  DotDims.lhsIdx_val_of_single (d := plainDot n p q wf) (cl := 1) rfl j k

theorem rhs_plain_0 (j : (⟨2, ![n, q]⟩ : Shape).Idx) (k : (plainDot n p q wf).contr.Idx) :
    ((plainDot n p q wf).rhsIdx j k 0).val = (k ⟨0, Nat.one_pos⟩).val :=
  DotDims.rhsIdx_val_of_single (d := plainDot n p q wf) (cr := 0) rfl j k

theorem rhs_plain_1 (j : (⟨2, ![n, q]⟩ : Shape).Idx) (k : (plainDot n p q wf).contr.Idx) :
    ((plainDot n p q wf).rhsIdx j k 1).val = (j 1).val := by
  unfold DotDims.rhsIdx
  rw [dif_neg (show ¬ (1 : Fin 2) ∈ (plainDot n p q wf).rhsBatch from List.not_mem_nil),
    dif_pos (show (1 : Fin 2) ∈ (plainDot n p q wf).rhsNonContracting from List.mem_singleton.mpr rfl)]
  rfl

-- Entry (i, j) of a plain product meets row i of the left operand and column j of the right one at the k-th term.
theorem plain_lhs (i : Fin n) (j : Fin q) (k : Fin p) :
    (plainDot n p q wf).lhsIdx (ix2 i j) ((contrEquiv1 (plainDot n p q wf) p rfl rfl).symm k) = ix2 i k :=
  funext fun a => Fin.ext (by
    match a with
    | ⟨0, _⟩ => exact lhs_plain_0 wf _ _
    | ⟨1, _⟩ => exact (lhs_plain_1 wf _ _).trans (contrEquiv1_symm_val _ p rfl rfl k))

theorem plain_rhs (i : Fin n) (j : Fin q) (k : Fin p) :
    (plainDot n p q wf).rhsIdx (ix2 i j) ((contrEquiv1 (plainDot n p q wf) p rfl rfl).symm k) = ix2 k j :=
  funext fun a => Fin.ext (by
    match a with
    | ⟨0, _⟩ => exact (rhs_plain_0 wf _ _).trans (contrEquiv1_symm_val _ p rfl rfl k)
    | ⟨1, _⟩ => exact rhs_plain_1 wf _ _)

theorem dot_plain_apply (l : (⟨2, ![n, p]⟩ : Shape).Idx → EReal) (r : (⟨2, ![p, q]⟩ : Shape).Idx → EReal)
    (i : Fin n) (j : Fin q) :
    Host.dotGeneral (F := Ideal) (φ₁ := .f32) (φ₂ := .f32) (plainDot n p q wf) none l r (ix2 i j)
      = ∑ k : Fin p, l (ix2 i k) * r (ix2 k j) := by
  simp only [Host.dotGeneral]
  rw [Ideal.dotGeneral_apply, ← Equiv.sum_comp (contrEquiv1 (plainDot n p q wf) p rfl rfl).symm]
  exact Finset.sum_congr rfl fun k _ => by rw [plain_lhs, plain_rhs]

-- The same product inside a kernel body, accumulated into the zero block.
theorem matmul_plain_apply {φ₁ φ₂ : FTy} (x : FVec Ideal ⟨2, ![n, p]⟩ φ₁) (w : FVec Ideal ⟨2, ![p, q]⟩ φ₂) (i : Fin n) (j : Fin q) :
    matmul (plainDot n p q wf) none x w (constant (F := Ideal) ⟨2, ![n, q]⟩ .f32 0x00000000#32) (ix2 i j)
      = ∑ k : Fin p, x (ix2 i k) * w (ix2 k j) := by
  simp only [matmul]
  rw [Ideal.matmul_constant_zero_apply, ← Equiv.sum_comp (contrEquiv1 (plainDot n p q wf) p rfl rfl).symm]
  exact Finset.sum_congr rfl fun k _ => by rw [plain_lhs, plain_rhs]

end Dot

end Cert.LibRows

end
-- ==== Proof.KTerm.lean ====
import proofs.«404768_j10737418240832_1_alg».proof.KernelIdeal
import proofs.«404768_j10737418240832_1_alg».proof.Proof.Gen.KernelIdeal
import proofs.«404768_j10737418240832_1_alg».proof.Proof.Spec
import proofs.«404768_j10737418240832_1_alg».proof.Proof.LibRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KTerm

open Idealize.ShloMosaic
open Cert.KernelIdeal Cert.KernelIdeal.Facts₀ Cert.KernelIdeal.Facts

variable {F : FTy → Type} [FloatOps F]

abbrev A (F : FTy → Type) (S : Shape) : Type := (⟨S, .f32⟩ : BufTy).Contents (Elt F)
abbrev I (F : FTy → Type) (S : Shape) : Type := (⟨S, .i32⟩ : BufTy).Contents (Elt F)

def rowT (off : Fin 2 → Nat) (h : S2x1600000.Slices off S1x1600000) (ei : I F S2x1600000) : I F S1600000 :=
  shapeCast S1600000 (extractStridedSlice S1x1600000 off ei h) shapeCasts_S1x1600000_S1600000

def batchColT (b : I F S100000) : I F S100000x1 :=
  shapeCast S100000x1 b shapeCasts_S100000_S100000x1

def zeroScoreT : A F S128x10 :=
  broadcastInDim S128x10 ![] bcast_S_S128x10 (constant S_ .f32 0x00000000#32)

def aggT (x : A F S100000x64) (v1 v3 : I F S1600000) : A F S100000x64 :=
  addf x
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 v3)
      (Host.gather gather_S100000x64_S1600000x1_S1600000x64_1_0_n_n_0_1_164 x
        (broadcastInDim S1600000x1 ![0] bcast_S1600000_S1600000x1_0
          (select
            (cmpi .slt v1 (broadcastInDim S1600000 ![] bcast_S_S1600000 (constantI S_ 32 0#32)))
            (addi v1 (broadcastInDim S1600000 ![] bcast_S_S1600000 (constantI S_ 32 100000#32)))
            v1))))

def slabMatT (off : Fin 3 → Nat) (h : S3x64x64.Slices off S1x64x64) (W : A F S3x64x64) : A F S64x64 :=
  shapeCast S64x64 (extractStridedSlice S1x64x64 off W h) shapeCasts_S1x64x64_S64x64

def slabRowT (off : Fin 2 → Nat) (h : S3x64.Slices off S1x64) (b : A F S3x64) : A F S1x64 :=
  shapeCast S1x64 (shapeCast S64 (extractStridedSlice S1x64 off b h) shapeCasts_S1x64_S64) shapeCasts_S64_S1x64

def meanT (s : A F S1x64) : A F S1x64 :=
  Host.divf s (broadcastInDim S1x64 ![] bcast_S_S1x64 (constant S_ .f32 0x47C35000#32))

def varT (s s2 : A F S1x64) : A F S1x64 :=
  subf (Host.divf s2 (broadcastInDim S1x64 ![] bcast_S_S1x64 (constant S_ .f32 0x47C35000#32)))
    (mulf (meanT s) (meanT s))

def slabOutT (off : Fin 3 → Nat) (h : S3x64x10.Slices off S1x64x10) (W : A F S3x64x10) : A F S64x10 :=
  shapeCast S64x10 (extractStridedSlice S1x64x10 off W h) shapeCasts_S1x64x10_S64x10

def slabBoutT (off : Fin 2 → Nat) (h : S3x10.Slices off S1x10) (b : A F S3x10) : A F S1x10 :=
  shapeCast S1x10 (shapeCast S10 (extractStridedSlice S1x10 off b h) shapeCasts_S1x10_S10) shapeCasts_S10_S1x10

def scoreT (pooled : A F S128x64) (Wo : A F S64x10) (bo : A F S1x10) (s : A F S128x10) : A F S128x10 :=
  addf s
    (addf (Host.dotGeneral dot_S128x64_S64x10_S128x10_1_0_0_1_n_n none pooled Wo)
      (broadcastInDim S128x10 ![0, 1] bcast_S1x10_S128x10_0_1 bo))

open Idealize.ShloMosaic.ValueIdx
open Cert.Spec

theorem rowT_apply (r : Fin 2) (off : Fin 2 → Nat) (hoff : off = ![r.val, 0]) (h : S2x1600000.Slices off S1x1600000)
    (ei : I Ideal S2x1600000) (e : Fin 1600000) : rowT off h ei (ix1 e) = ei (ix2 r e) := by
  subst hoff
  unfold rowT
  refine (shapeCast_1a_a_apply _ _ e).trans ?_
  exact extractStridedSlice_apply _ _ _ _ _ (fun ax => by
    match ax with
    | ⟨0, _⟩ => exact (Nat.add_zero _).symm
    | ⟨1, _⟩ => exact (Nat.zero_add _).symm)

theorem batchColT_apply (b : I Ideal S100000) (e : Fin 100000) : batchColT b (ix2 e 0) = b (ix1 e) := by
  unfold batchColT
  exact shapeCast_apply _ _ _ _ (by
    rw [Shape.rowMajor_val_two, Shape.rowMajor_val_one]
    show e.val = e.val * 1 + 0
    omega)

theorem zeroScoreT_eq : zeroScoreT (F := Ideal) = mk (fun _ _ => 0) := by
  funext i
  unfold zeroScoreT
  refine (broadcastInDim_apply _ _ _ i ix0 (fun a => a.elim0)).trans ?_
  exact Ideal.ofBits_zero_f32

theorem slabMatT_eq (l : Fin 3) (off : Fin 3 → Nat) (hoff : off = ![l.val, 0, 0]) (h : S3x64x64.Slices off S1x64x64)
    (W : A Ideal S3x64x64) : tab (slabMatT off h W) = fun k j => W (ix3 l k j) := by
  subst hoff
  funext k j
  show slabMatT _ h W (ix2 k j) = _
  unfold slabMatT
  refine (shapeCast_1ab_ab_apply _ _ k j).trans ?_
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

theorem slabRowT_apply (l : Fin 3) (off : Fin 2 → Nat) (hoff : off = ![l.val, 0]) (h : S3x64.Slices off S1x64)
    (b : A Ideal S3x64) (j : Fin 64) : slabRowT off h b (ix2 0 j) = b (ix2 l j) := by
  subst hoff
  unfold slabRowT
  refine (shapeCast_a_1a_apply _ _ 0 j).trans ?_
  refine (shapeCast_1a_a_apply _ _ j).trans ?_
  exact extractStridedSlice_apply _ _ _ _ _ (fun ax => by
    match ax with
    | ⟨0, _⟩ => exact (Nat.add_zero _).symm
    | ⟨1, _⟩ => exact (Nat.zero_add _).symm)

theorem slabOutT_eq (l : Fin 3) (off : Fin 3 → Nat) (hoff : off = ![l.val, 0, 0]) (h : S3x64x10.Slices off S1x64x10)
    (W : A Ideal S3x64x10) : tab (slabOutT off h W) = fun k o => W (ix3 l k o) := by
  subst hoff
  funext k o
  show slabOutT _ h W (ix2 k o) = _
  unfold slabOutT
  refine (shapeCast_1ab_ab_apply _ _ k o).trans ?_
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

theorem slabBoutT_apply (l : Fin 3) (off : Fin 2 → Nat) (hoff : off = ![l.val, 0]) (h : S3x10.Slices off S1x10)
    (b : A Ideal S3x10) (o : Fin 10) : slabBoutT off h b (ix2 0 o) = b (ix2 l o) := by
  subst hoff
  unfold slabBoutT
  refine (shapeCast_a_1a_apply _ _ 0 o).trans ?_
  refine (shapeCast_1a_a_apply _ _ o).trans ?_
  exact extractStridedSlice_apply _ _ _ _ _ (fun ax => by
    match ax with
    | ⟨0, _⟩ => exact (Nat.add_zero _).symm
    | ⟨1, _⟩ => exact (Nat.zero_add _).symm)

theorem nrowsRow_apply (i : S1x64.Idx) :
    broadcastInDim S1x64 ![] bcast_S_S1x64 (constant (F := Ideal) S_ .f32 0x47C35000#32) i = nrows :=
  broadcastInDim_apply _ _ _ i ix0 (fun a => a.elim0)

theorem meanT_apply (s : A Ideal S1x64) (j : Fin 64) :
    meanT (F := Ideal) s (ix2 0 j) = Ideal.div (s (ix2 0 j)) nrows := by
  unfold meanT
  show Ideal.div (s (ix2 0 j)) _ = _
  rw [nrowsRow_apply]

theorem varT_apply (s s2 : A Ideal S1x64) (j : Fin 64) :
    varT (F := Ideal) s s2 (ix2 0 j)
      = Ideal.div (s2 (ix2 0 j)) nrows - Ideal.div (s (ix2 0 j)) nrows * Ideal.div (s (ix2 0 j)) nrows := by
  unfold varT
  show Ideal.div (s2 (ix2 0 j)) _ - meanT s (ix2 0 j) * meanT s (ix2 0 j) = _
  rw [nrowsRow_apply, meanT_apply]

theorem dotOut_apply (pooled : A Ideal S128x64) (Wo : A Ideal S64x10) (g : Fin 128) (o : Fin 10) :
    Host.dotGeneral (F := Ideal) (φ₁ := .f32) (φ₂ := .f32) dot_S128x64_S64x10_S128x10_1_0_0_1_n_n none pooled Wo (ix2 g o)
      = ∑ k : Fin 64, pooled (ix2 g k) * Wo (ix2 k o) :=
  Cert.LibRows.dot_plain_apply dot_S128x64_S64x10_S128x10_1_0_0_1_n_n_wf pooled Wo g o

theorem boutRows_apply (bo : A Ideal S1x10) (g : Fin 128) (o : Fin 10) :
    broadcastInDim S128x10 ![0, 1] bcast_S1x10_S128x10_0_1 bo (ix2 g o) = bo (ix2 0 o) :=
  broadcastInDim_apply _ _ _ _ _ (fun a => by
    match a with
    | ⟨0, _⟩ => rfl
    | ⟨1, _⟩ => rfl)

theorem scoreT_eq (pooled : A Ideal S128x64) (Wo : A Ideal S64x10) (bo : A Ideal S1x10) (s : A Ideal S128x10) :
    scoreT (F := Ideal) pooled Wo bo s
      = mk (fun g o => tab s g o + lin (tab pooled) (tab Wo) (fun o => bo (ix2 0 o)) g o) := by
  funext i
  obtain ⟨g, o, rfl⟩ : ∃ g o, i = ix2 g o := ⟨i 0, i 1, eq_ix2 i⟩
  unfold scoreT
  rw [addf_apply, addf_apply, dotOut_apply, boutRows_apply]
  rfl

theorem wordRow_apply (c : BitVec 32) (i : S1600000.Idx) :
    broadcastInDim S1600000 ![] bcast_S_S1600000 (constantI S_ 32 c) i = c :=
  broadcastInDim_apply _ _ _ i ix0 (fun a => a.elim0)

theorem wordCol_apply (v : I Ideal S1600000) (e : Fin 1600000) :
    broadcastInDim S1600000x1 ![0] bcast_S1600000_S1600000x1_0 v (ix2 e 0) = v (ix1 e) :=
  broadcastInDim_apply _ _ _ _ (ix1 e) (fun a => by
    match a with
    | ⟨0, _⟩ => rfl)

theorem srcCol_apply (v1 : I Ideal S1600000) (e : Fin 1600000) :
    broadcastInDim S1600000x1 ![0] bcast_S1600000_S1600000x1_0
      (select (cmpi .slt v1 (broadcastInDim S1600000 ![] bcast_S_S1600000 (constantI S_ 32 0#32)))
        (addi v1 (broadcastInDim S1600000 ![] bcast_S_S1600000 (constantI S_ 32 100000#32))) v1) (ix2 e 0)
      = wrapN 100000 (v1 (ix1 e)) := by
  rw [wordCol_apply, select_apply]
  show Scalar.select (IntOp.cmpi .slt (v1 (ix1 e)) (broadcastInDim S1600000 ![] bcast_S_S1600000 (constantI S_ 32 0#32) (ix1 e)))
    (IntOp.addi (v1 (ix1 e)) (broadcastInDim S1600000 ![] bcast_S_S1600000 (constantI S_ 32 100000#32) (ix1 e))) (v1 (ix1 e)) = _
  rw [wordRow_apply, wordRow_apply]
  exact Cert.LibRows.wrap_word 100000 _

theorem zeroTab_apply (i : S100000x64.Idx) :
    broadcastInDim S100000x64 ![] bcast_S_S100000x64 (constant (F := Ideal) S_ .f32 0x00000000#32) i = 0 :=
  (broadcastInDim_apply _ _ _ i ix0 (fun a => a.elim0)).trans Ideal.ofBits_zero_f32

theorem gatherRows_apply (x : A Ideal S100000x64) (idx : I Ideal S1600000x1) (e : Fin 1600000) (j : Fin 64) :
    Host.gather gather_S100000x64_S1600000x1_S1600000x64_1_0_n_n_0_1_164 x idx (ix2 e j)
      = x (ix2 (clampRow (N := 100000) (by decide) (idx (ix2 e 0))) j) :=
  Cert.LibRows.gather_rows_apply (by decide) gather_S100000x64_S1600000x1_S1600000x64_1_0_n_n_0_1_164_wf x idx e j

theorem scatterRows_apply (z : A Ideal S100000x64) (idx : I Ideal S1600000x1) (u : A Ideal S1600000x64)
    (r : Fin 100000) (j : Fin 64) :
    Host.scatterAdd (F := Ideal) (φ := .f32) scatter_S100000x64_S1600000x1_S1600000x64_1_0_0_1 z idx u (ix2 r j)
      = z (ix2 r j) + ∑ e : Fin 1600000, if (idx (ix2 e 0)).toInt = (r.val : Int) then u (ix2 e j) else 0 :=
  Cert.LibRows.scatterAdd_rows_apply scatter_S100000x64_S1600000x1_S1600000x64_1_0_0_1_wf z idx u r j

theorem aggT_eq (x : A Ideal S100000x64) (v1 v3 : I Ideal S1600000) :
    aggT (F := Ideal) x v1 v3 = mk (agg (tab x) (fun e => v1 (ix1 e)) (fun e => v3 (ix1 e))) := by
  funext i
  obtain ⟨r, j, rfl⟩ : ∃ r j, i = ix2 r j := ⟨i 0, i 1, eq_ix2 i⟩
  unfold aggT
  rw [addf_apply, scatterRows_apply, zeroTab_apply, zero_add, mk_ix2]
  unfold agg
  refine congrArg (x (ix2 r j) + ·) (Finset.sum_congr rfl fun e _ => ?_)
  rw [wordCol_apply, gatherRows_apply, srcCol_apply]
  rfl

end Cert.KernelIdeal.KTerm
end
-- ==== Proof.KHost.lean ====
import proofs.«404768_j10737418240832_1_alg».proof.Proof.KTerm
import proofs.«404768_j10737418240832_1_alg».proof.Proof.Gen.KernelIdeal.Launch
import Idealize.ShloMosaic.Lib.StableHlo.Run

set_option maxRecDepth 16384

noncomputable section

namespace Cert.KernelIdeal.KHost

open Idealize.ShloMosaic Idealize.ShloMosaic.TcCoe
open Cert.KernelIdeal Cert.KernelIdeal.Gen Cert.KernelIdeal.KTerm

variable {F : FTy → Type} [FloatOps F]

attribute [local irreducible] Host.gather Host.scatterAdd

macro "writes_sub" : tactic =>
  `(tactic| (simp only [List.Forall, StableHlo.nullary_writes, StableHlo.unary_writes, StableHlo.binary_writes,
      StableHlo.ternary_writes, StableHlo.reshape_writes]
             repeat' apply And.intro
             all_goals exact Finset.singleton_subset_iff.mpr (List.mem_toFinset.mpr (List.mem_map_of_mem (by decide)))))

variable (W : Valuation τ sig (Elt F))

abbrev writes0 : List (Ref sig .tc) :=
  [main_v0, main_v1, main_v2, main_v3, main_v4, main_cst, main_v5, main_c, main_v6, main_v7, main_c_0, main_v8, main_v9, main_v10, main_v11, main_v12, main_cst_1, main_v13, main_v14, main_v15, main_v16, main_v17, main_v18, main_v19, main_v20, main_v21]

theorem keep0 {r : Ref sig .tc} (hr : r ∉ writes0) :
    StableHlo.after hostOps0 W (Proc.devRef .tc r) = W (Proc.devRef .tc r) :=
  StableHlo.after_of_writes_sub (W := writes0) hostOps0 W (by writes_sub) hr

theorem h0_v1 : StableHlo.after hostOps0 W (Proc.devRef .tc main_v1)
    = rowT ![0, 0] slices_S2x1600000_S1x1600000_0_0 (W (Proc.devRef .tc main_arg1)) := by
  after_results_simp; rfl
theorem h0_v3 : StableHlo.after hostOps0 W (Proc.devRef .tc main_v3)
    = rowT ![1, 0] slices_S2x1600000_S1x1600000_1_0 (W (Proc.devRef .tc main_arg1)) := by
  after_results_simp; rfl
theorem h0_v4 : StableHlo.after hostOps0 W (Proc.devRef .tc main_v4)
    = batchColT (W (Proc.devRef .tc main_arg2)) := by
  after_results_simp; rfl
theorem h0_v5 : StableHlo.after hostOps0 W (Proc.devRef .tc main_v5)
    = zeroScoreT := by
  after_results_simp; rfl
theorem h0_v16 : StableHlo.after hostOps0 W (Proc.devRef .tc main_v16)
    = aggT (W (Proc.devRef .tc main_arg0)) (rowT ![0, 0] slices_S2x1600000_S1x1600000_0_0 (W (Proc.devRef .tc main_arg1))) (rowT ![1, 0] slices_S2x1600000_S1x1600000_1_0 (W (Proc.devRef .tc main_arg1))) := by
  after_results_simp; rfl
theorem h0_v18 : StableHlo.after hostOps0 W (Proc.devRef .tc main_v18)
    = slabMatT ![0, 0, 0] slices_S3x64x64_S1x64x64_0_0_0 (W (Proc.devRef .tc main_arg3)) := by
  after_results_simp; rfl
theorem h0_v21 : StableHlo.after hostOps0 W (Proc.devRef .tc main_v21)
    = slabRowT ![0, 0] slices_S3x64_S1x64_0_0 (W (Proc.devRef .tc main_arg4)) := by
  after_results_simp; rfl

abbrev writes1 : List (Ref sig .tc) :=
  [main_cst_2, main_v23, main_v24, main_cst_3, main_v25, main_v26, main_v27, main_v28, main_v29, main_v30, main_v31, main_v32, main_v33, main_v34, main_v35, main_v36, main_v37, main_v38, main_v39]

theorem keep1 {r : Ref sig .tc} (hr : r ∉ writes1) :
    StableHlo.after hostOps1 W (Proc.devRef .tc r) = W (Proc.devRef .tc r) :=
  StableHlo.after_of_writes_sub (W := writes1) hostOps1 W (by writes_sub) hr

theorem h1_v24 : StableHlo.after hostOps1 W (Proc.devRef .tc main_v24)
    = meanT (W (Proc.devRef .tc main_v22_1)) := by
  after_results_simp; rfl
theorem h1_v28 : StableHlo.after hostOps1 W (Proc.devRef .tc main_v28)
    = varT (W (Proc.devRef .tc main_v22_1)) (W (Proc.devRef .tc main_v22_2)) := by
  after_results_simp; rfl
theorem h1_v31 : StableHlo.after hostOps1 W (Proc.devRef .tc main_v31)
    = slabRowT ![0, 0] slices_S3x64_S1x64_0_0 (W (Proc.devRef .tc main_arg5)) := by
  after_results_simp; rfl
theorem h1_v34 : StableHlo.after hostOps1 W (Proc.devRef .tc main_v34)
    = slabRowT ![0, 0] slices_S3x64_S1x64_0_0 (W (Proc.devRef .tc main_arg6)) := by
  after_results_simp; rfl
theorem h1_v36 : StableHlo.after hostOps1 W (Proc.devRef .tc main_v36)
    = slabMatT ![0, 0, 0] slices_S3x64x64_S1x64x64_0_0_0 (W (Proc.devRef .tc main_arg7)) := by
  after_results_simp; rfl
theorem h1_v39 : StableHlo.after hostOps1 W (Proc.devRef .tc main_v39)
    = slabRowT ![0, 0] slices_S3x64_S1x64_0_0 (W (Proc.devRef .tc main_arg8)) := by
  after_results_simp; rfl

abbrev writes2 : List (Ref sig .tc) :=
  [main_v41, main_v42, main_v43, main_v44, main_v45, main_v46, main_v47, main_v48, main_v49, main_c_4, main_v50, main_v51, main_c_5, main_v52, main_v53, main_v54, main_v55, main_v56, main_cst_6, main_v57, main_v58, main_v59, main_v60, main_v61, main_v62, main_v63, main_v64, main_v65]

theorem keep2 {r : Ref sig .tc} (hr : r ∉ writes2) :
    StableHlo.after hostOps2 W (Proc.devRef .tc r) = W (Proc.devRef .tc r) :=
  StableHlo.after_of_writes_sub (W := writes2) hostOps2 W (by writes_sub) hr

theorem h2_v49 : StableHlo.after hostOps2 W (Proc.devRef .tc main_v49)
    = scoreT (W (Proc.devRef .tc main_v40_1)) (slabOutT ![0, 0, 0] slices_S3x64x10_S1x64x10_0_0_0 (W (Proc.devRef .tc main_arg9))) (slabBoutT ![0, 0] slices_S3x10_S1x10_0_0 (W (Proc.devRef .tc main_arg10))) (W (Proc.devRef .tc main_v5)) := by
  after_results_simp; rfl
theorem h2_v60 : StableHlo.after hostOps2 W (Proc.devRef .tc main_v60)
    = aggT (W (Proc.devRef .tc main_v40_0)) (W (Proc.devRef .tc main_v1)) (W (Proc.devRef .tc main_v3)) := by
  after_results_simp; rfl
theorem h2_v62 : StableHlo.after hostOps2 W (Proc.devRef .tc main_v62)
    = slabMatT ![1, 0, 0] slices_S3x64x64_S1x64x64_1_0_0 (W (Proc.devRef .tc main_arg3)) := by
  after_results_simp; rfl
theorem h2_v65 : StableHlo.after hostOps2 W (Proc.devRef .tc main_v65)
    = slabRowT ![1, 0] slices_S3x64_S1x64_1_0 (W (Proc.devRef .tc main_arg4)) := by
  after_results_simp; rfl

abbrev writes3 : List (Ref sig .tc) :=
  [main_cst_7, main_v67, main_v68, main_cst_8, main_v69, main_v70, main_v71, main_v72, main_v73, main_v74, main_v75, main_v76, main_v77, main_v78, main_v79, main_v80, main_v81, main_v82, main_v83]

theorem keep3 {r : Ref sig .tc} (hr : r ∉ writes3) :
    StableHlo.after hostOps3 W (Proc.devRef .tc r) = W (Proc.devRef .tc r) :=
  StableHlo.after_of_writes_sub (W := writes3) hostOps3 W (by writes_sub) hr

theorem h3_v68 : StableHlo.after hostOps3 W (Proc.devRef .tc main_v68)
    = meanT (W (Proc.devRef .tc main_v66_1)) := by
  after_results_simp; rfl
theorem h3_v72 : StableHlo.after hostOps3 W (Proc.devRef .tc main_v72)
    = varT (W (Proc.devRef .tc main_v66_1)) (W (Proc.devRef .tc main_v66_2)) := by
  after_results_simp; rfl
theorem h3_v75 : StableHlo.after hostOps3 W (Proc.devRef .tc main_v75)
    = slabRowT ![1, 0] slices_S3x64_S1x64_1_0 (W (Proc.devRef .tc main_arg5)) := by
  after_results_simp; rfl
theorem h3_v78 : StableHlo.after hostOps3 W (Proc.devRef .tc main_v78)
    = slabRowT ![1, 0] slices_S3x64_S1x64_1_0 (W (Proc.devRef .tc main_arg6)) := by
  after_results_simp; rfl
theorem h3_v80 : StableHlo.after hostOps3 W (Proc.devRef .tc main_v80)
    = slabMatT ![1, 0, 0] slices_S3x64x64_S1x64x64_1_0_0 (W (Proc.devRef .tc main_arg7)) := by
  after_results_simp; rfl
theorem h3_v83 : StableHlo.after hostOps3 W (Proc.devRef .tc main_v83)
    = slabRowT ![1, 0] slices_S3x64_S1x64_1_0 (W (Proc.devRef .tc main_arg8)) := by
  after_results_simp; rfl

abbrev writes4 : List (Ref sig .tc) :=
  [main_v85, main_v86, main_v87, main_v88, main_v89, main_v90, main_v91, main_v92, main_v93, main_c_9, main_v94, main_v95, main_c_10, main_v96, main_v97, main_v98, main_v99, main_v100, main_cst_11, main_v101, main_v102, main_v103, main_v104, main_v105, main_v106, main_v107, main_v108, main_v109]

theorem keep4 {r : Ref sig .tc} (hr : r ∉ writes4) :
    StableHlo.after hostOps4 W (Proc.devRef .tc r) = W (Proc.devRef .tc r) :=
  StableHlo.after_of_writes_sub (W := writes4) hostOps4 W (by writes_sub) hr

theorem h4_v93 : StableHlo.after hostOps4 W (Proc.devRef .tc main_v93)
    = scoreT (W (Proc.devRef .tc main_v84_1)) (slabOutT ![1, 0, 0] slices_S3x64x10_S1x64x10_1_0_0 (W (Proc.devRef .tc main_arg9))) (slabBoutT ![1, 0] slices_S3x10_S1x10_1_0 (W (Proc.devRef .tc main_arg10))) (W (Proc.devRef .tc main_v49)) := by
  after_results_simp; rfl
theorem h4_v104 : StableHlo.after hostOps4 W (Proc.devRef .tc main_v104)
    = aggT (W (Proc.devRef .tc main_v84_0)) (W (Proc.devRef .tc main_v1)) (W (Proc.devRef .tc main_v3)) := by
  after_results_simp; rfl
theorem h4_v106 : StableHlo.after hostOps4 W (Proc.devRef .tc main_v106)
    = slabMatT ![2, 0, 0] slices_S3x64x64_S1x64x64_2_0_0 (W (Proc.devRef .tc main_arg3)) := by
  after_results_simp; rfl
theorem h4_v109 : StableHlo.after hostOps4 W (Proc.devRef .tc main_v109)
    = slabRowT ![2, 0] slices_S3x64_S1x64_2_0 (W (Proc.devRef .tc main_arg4)) := by
  after_results_simp; rfl

abbrev writes5 : List (Ref sig .tc) :=
  [main_cst_12, main_v111, main_v112, main_cst_13, main_v113, main_v114, main_v115, main_v116, main_v117, main_v118, main_v119, main_v120, main_v121, main_v122, main_v123, main_v124, main_v125, main_v126, main_v127]

theorem keep5 {r : Ref sig .tc} (hr : r ∉ writes5) :
    StableHlo.after hostOps5 W (Proc.devRef .tc r) = W (Proc.devRef .tc r) :=
  StableHlo.after_of_writes_sub (W := writes5) hostOps5 W (by writes_sub) hr

theorem h5_v112 : StableHlo.after hostOps5 W (Proc.devRef .tc main_v112)
    = meanT (W (Proc.devRef .tc main_v110_1)) := by
  after_results_simp; rfl
theorem h5_v116 : StableHlo.after hostOps5 W (Proc.devRef .tc main_v116)
    = varT (W (Proc.devRef .tc main_v110_1)) (W (Proc.devRef .tc main_v110_2)) := by
  after_results_simp; rfl
theorem h5_v119 : StableHlo.after hostOps5 W (Proc.devRef .tc main_v119)
    = slabRowT ![2, 0] slices_S3x64_S1x64_2_0 (W (Proc.devRef .tc main_arg5)) := by
  after_results_simp; rfl
theorem h5_v122 : StableHlo.after hostOps5 W (Proc.devRef .tc main_v122)
    = slabRowT ![2, 0] slices_S3x64_S1x64_2_0 (W (Proc.devRef .tc main_arg6)) := by
  after_results_simp; rfl
theorem h5_v124 : StableHlo.after hostOps5 W (Proc.devRef .tc main_v124)
    = slabMatT ![2, 0, 0] slices_S3x64x64_S1x64x64_2_0_0 (W (Proc.devRef .tc main_arg7)) := by
  after_results_simp; rfl
theorem h5_v127 : StableHlo.after hostOps5 W (Proc.devRef .tc main_v127)
    = slabRowT ![2, 0] slices_S3x64_S1x64_2_0 (W (Proc.devRef .tc main_arg8)) := by
  after_results_simp; rfl

abbrev writes6 : List (Ref sig .tc) :=
  [main_v129, main_v130, main_v131, main_v132, main_v133, main_v134, main_v135, main_v136, main_v137]

theorem h6_v137 : StableHlo.after hostOps6 W (Proc.devRef .tc main_v137)
    = scoreT (W (Proc.devRef .tc main_v128_1)) (slabOutT ![2, 0, 0] slices_S3x64x10_S1x64x10_2_0_0 (W (Proc.devRef .tc main_arg9))) (slabBoutT ![2, 0] slices_S3x10_S1x10_2_0 (W (Proc.devRef .tc main_arg10))) (W (Proc.devRef .tc main_v93)) := by
  after_results_simp; rfl

end Cert.KernelIdeal.KHost

end
-- ==== Proof.KLayer.lean ====
import proofs.«404768_j10737418240832_1_alg».proof.Proof.Spec
import proofs.«404768_j10737418240832_1_alg».proof.Proof.KTerm

noncomputable section

namespace Cert.KernelIdeal.KLayer

open Idealize.ShloMosaic Idealize.ShloMosaic.ValueIdx
open Cert.Spec Cert.KernelIdeal Cert.KernelIdeal.KTerm

theorem mean_of (H : Tab 100000 64) (s : A Ideal S1x64) (hs : s = mk (fun (_ : Fin 1) j => colSum H j)) (j : Fin 64) :
    KTerm.meanT s (ix2 0 j) = mean H j := by
  subst hs
  rw [meanT_apply]
  rfl

theorem var_of (H : Tab 100000 64) (s s2 : A Ideal S1x64) (hs : s = mk (fun (_ : Fin 1) j => colSum H j))
    (hs2 : s2 = mk (fun (_ : Fin 1) j => colSumSq H j)) (j : Fin 64) :
    KTerm.varT s s2 (ix2 0 j) = varK H j := by
  subst hs hs2
  rw [varT_apply]
  rfl

theorem score_of (pooled : A Ideal S128x64) (Wo : A Ideal S64x10) (bo : A Ideal S1x10) (s : A Ideal S128x10)
    (P : Params) (batch : Fin 100000 → BitVec 32) (X : Tab 100000 64) (hp : pooled = mk (pool batch X))
    (hWo : P.Wo = tab Wo) (hbo : P.bo = fun o => bo (ix2 0 o)) :
    KTerm.scoreT pooled Wo bo s = mk (nextScore P batch X (tab s)) := by
  subst hp
  rw [scoreT_eq, tab_mk]
  unfold nextScore
  rw [hWo, hbo]

section Slabs

variable (l : Fin 3) (W1 : A Ideal S3x64x64) (b1 g bt : A Ideal S3x64) (W2 : A Ideal S3x64x64) (b2 : A Ideal S3x64)
  (Wo : A Ideal S3x64x10) (bo : A Ideal S3x10)

theorem paramsOf_Wo (h : S3x64x10.Slices ![l.val, 0, 0] S1x64x10) :
    (paramsOf l W1 b1 g bt W2 b2 Wo bo).Wo = tab (KTerm.slabOutT ![l.val, 0, 0] h Wo) :=
  (slabOutT_eq l _ rfl h Wo).symm

theorem paramsOf_bo (h : S3x10.Slices ![l.val, 0] S1x10) :
    (paramsOf l W1 b1 g bt W2 b2 Wo bo).bo = fun o => KTerm.slabBoutT ![l.val, 0] h bo (ix2 0 o) :=
  funext fun o => (slabBoutT_apply l _ rfl h bo o).symm

end Slabs

end Cert.KernelIdeal.KLayer

end
-- ==== Proof.Algebra.lean ====
import proofs.«404768_j10737418240832_1_alg».proof.Proof.Spec
import Mathlib.Data.EReal.Basic
import Mathlib.Data.EReal.Operations
import Mathlib.Data.EReal.Inv
import Mathlib.Algebra.BigOperators.Fin
import Mathlib.Logic.Equiv.Fin.Basic
import Mathlib.Analysis.SpecialFunctions.Sqrt
import Mathlib.Tactic.Ring
import Mathlib.Tactic.Linarith
import Mathlib.Tactic.Positivity

noncomputable section

namespace Cert.Algebra

open Cert.Spec Idealize.ShloMosaic
open scoped BigOperators

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem nrows_eq : Cert.Spec.nrows = ((100000 : ℝ) : EReal) := by
  simp [Ideal.ofBits, Ideal.ieee, -EReal.coe_mul]; norm_num

theorem eps_pos : ∃ e : ℝ, 0 < e ∧ Cert.Spec.eps = (e : EReal) := by
  refine ⟨_, ?_, by simp [Ideal.ofBits, Ideal.ieee, -EReal.coe_mul]; rfl⟩
  positivity

-- A sum over 100000 rows is the sum over 20 blocks of 5000 rows.
theorem blocks_sum {M : Type*} [AddCommMonoid M] (f : Fin 100000 → M) :
    ∑ i : Fin 100000, f i = ∑ t : Fin 20, ∑ r : Fin 5000, f ⟨5000 * t.val + r.val, by omega⟩ := by
  rw [← Fintype.sum_prod_type']
  symm
  refine Fintype.sum_equiv (finProdFinEquiv (m := 20) (n := 5000)) _ _ ?_
  intro p
  congr 1
  apply Fin.ext
  show 5000 * p.1.val + p.2.val = p.2.val + 5000 * p.1.val
  omega

theorem div_nrows (x : ℝ) : Ideal.div (x : EReal) nrows = ((x * (1 / 100000) : ℝ) : EReal) := by
  rw [nrows_eq, Ideal.div_coe (by norm_num), ← EReal.coe_mul]

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem coe_max_zero (a : ℝ) : max (a : EReal) 0 = ((max a 0 : ℝ) : EReal) := by
  rw [← EReal.coe_zero]; exact (EReal.coe_strictMono.monotone.map_max).symm

section Column

variable {H : Tab 100000 64} {j : Fin 64} {h : Fin 100000 → ℝ}

theorem colSum_coe (hh : ∀ i, H i j = (h i : EReal)) : colSum H j = ((∑ i, h i : ℝ) : EReal) := by
  unfold colSum; rw [coe_sum]; exact Finset.sum_congr rfl fun i _ => hh i

theorem colSumSq_coe (hh : ∀ i, H i j = (h i : EReal)) :
    colSumSq H j = ((∑ i, h i * h i : ℝ) : EReal) := by
  unfold colSumSq; rw [coe_sum]
  exact Finset.sum_congr rfl fun i _ => by rw [hh i, EReal.coe_mul]

theorem mean_coe (hh : ∀ i, H i j = (h i : EReal)) :
    mean H j = (((∑ i, h i) * (1 / 100000) : ℝ) : EReal) := by
  unfold mean; rw [colSum_coe hh, div_nrows]

theorem varK_coe (hh : ∀ i, H i j = (h i : EReal)) :
    varK H j = (((∑ i, h i * h i) * (1 / 100000)
      - ((∑ i, h i) * (1 / 100000)) * ((∑ i, h i) * (1 / 100000)) : ℝ) : EReal) := by
  unfold varK; rw [colSumSq_coe hh, div_nrows, mean_coe hh, ← EReal.coe_mul, ← EReal.coe_sub]

theorem varR_coe (hh : ∀ i, H i j = (h i : EReal)) :
    varR H j = (((∑ i, (h i - (∑ i, h i) * (1 / 100000)) * (h i - (∑ i, h i) * (1 / 100000)))
      * (1 / 100000) : ℝ) : EReal) := by
  have hs : (∑ i : Fin 100000, (H i j - mean H j) * (H i j - mean H j))
      = ((∑ i, (h i - (∑ i, h i) * (1 / 100000)) * (h i - (∑ i, h i) * (1 / 100000)) : ℝ) : EReal) := by
    rw [coe_sum, mean_coe hh]
    exact Finset.sum_congr rfl fun i _ => by rw [hh i, ← EReal.coe_sub, ← EReal.coe_mul]
  unfold varR; rw [hs, div_nrows]

end Column

-- The mean of squares minus the squared mean is the mean squared deviation.
theorem var_identity (h : Fin 100000 → ℝ) :
    (∑ i, h i * h i) * (1 / 100000) - ((∑ i, h i) * (1 / 100000)) * ((∑ i, h i) * (1 / 100000))
      = (∑ i, (h i - (∑ i, h i) * (1 / 100000)) * (h i - (∑ i, h i) * (1 / 100000))) * (1 / 100000) := by
  set S := ∑ i, h i with hS
  set Q := ∑ i, h i * h i with hQ
  have e : ∀ i, (h i - S * (1 / 100000)) * (h i - S * (1 / 100000))
      = h i * h i - (2 * (S * (1 / 100000))) * h i + (S * (1 / 100000)) * (S * (1 / 100000)) :=
    fun i => by ring
  simp only [e, Finset.sum_add_distrib, Finset.sum_sub_distrib, ← Finset.mul_sum, Finset.sum_const,
    Finset.card_univ, Fintype.card_fin, nsmul_eq_mul]
  rw [← hS, ← hQ]
  push_cast
  ring

theorem varK_eq_varR (H : Tab 100000 64) (hH : IsReal H) : varK H = varR H := by
  funext j
  choose h hh using fun i => hH i j
  rw [varK_coe hh, varR_coe hh, var_identity]

theorem varR_nonneg (H : Tab 100000 64) (hH : IsReal H) (j : Fin 64) :
    ∃ v : ℝ, 0 ≤ v ∧ varR H j = (v : EReal) := by
  choose h hh using fun i => hH i j
  refine ⟨_, ?_, varR_coe hh⟩
  exact mul_nonneg (Finset.sum_nonneg fun i _ => mul_self_nonneg _) (by norm_num)

theorem isReal_lin {n p q : Nat} {a : Tab n p} {W : Tab p q} {b : Fin q → EReal}
    (ha : IsReal a) (hW : IsReal W) (hb : IsRealV b) : IsReal (lin a W b) := by
  intro r j
  choose av hav using ha r
  choose wv hwv using fun k => hW k j
  obtain ⟨bv, hbv⟩ := hb j
  refine ⟨(∑ k, av k * wv k) + bv, ?_⟩
  unfold lin
  rw [EReal.coe_add, coe_sum, hbv]
  congr 1
  exact Finset.sum_congr rfl fun k _ => by rw [hav k, hwv k, EReal.coe_mul]

theorem isReal_agg {x : Tab 100000 64} (hx : IsReal x) (src dst : Fin 1600000 → BitVec 32) :
    IsReal (agg x src dst) := by
  intro r j
  choose xv hxv using hx
  refine ⟨xv r j + ∑ e : Fin 1600000, if (dst e).toInt = (r.val : Int) then
    xv (clampRow (N := 100000) (by decide) (wrapN 100000 (src e))) j else 0, ?_⟩
  have hs : ∀ e : Fin 1600000,
      (if (dst e).toInt = (r.val : Int) then
        x (clampRow (N := 100000) (by decide) (wrapN 100000 (src e))) j else 0)
      = ((if (dst e).toInt = (r.val : Int) then
        xv (clampRow (N := 100000) (by decide) (wrapN 100000 (src e))) j else 0 : ℝ) : EReal) := by
    intro e
    split_ifs
    · exact hxv _ j
    · rfl
  unfold agg
  rw [EReal.coe_add, coe_sum, hxv r j, Finset.sum_congr rfl fun e _ => hs e]

theorem isRealV_mean {H : Tab 100000 64} (hH : IsReal H) : IsRealV (mean H) := by
  intro j
  choose h hh using fun i => hH i j
  exact ⟨_, mean_coe hh⟩

theorem isReal_bnrelu {n : Nat} {H : Tab n 64} {mu var g bt : Fin 64 → EReal} (hH : IsReal H)
    (hmu : IsRealV mu) (hvar : ∀ j, ∃ v : ℝ, 0 ≤ v ∧ var j = (v : EReal)) (hg : IsRealV g)
    (hbt : IsRealV bt) : IsReal (bnrelu H mu var g bt) := by
  intro r j
  obtain ⟨y, hy⟩ := hH r j
  obtain ⟨m, hm⟩ := hmu j
  obtain ⟨v, hv0, hv⟩ := hvar j
  obtain ⟨gv, hgv⟩ := hg j
  obtain ⟨bv, hbv⟩ := hbt j
  obtain ⟨e, he0, he⟩ := eps_pos
  refine ⟨max ((y - m) * (Real.sqrt (v + e))⁻¹ * gv + bv) 0, ?_⟩
  unfold bnrelu
  rw [hy, hm, hv, hgv, hbv, he, ← EReal.coe_add v e, rsqrt_pos (by linarith), ← EReal.coe_sub,
    ← EReal.coe_mul, ← EReal.coe_mul, ← EReal.coe_add, coe_max_zero]

theorem isReal_hid {P : Params} (hP : P.Real) (src dst : Fin 1600000 → BitVec 32)
    {x : Tab 100000 64} (hx : IsReal x) : IsReal (hid P src dst x) :=
  isReal_lin (isReal_agg hx src dst) hP.W1 hP.b1

theorem nextX_eq {P : Params} (hP : P.Real) (src dst : Fin 1600000 → BitVec 32)
    {x : Tab 100000 64} (hx : IsReal x) : nextX varK P src dst x = nextX varR P src dst x := by
  unfold nextX
  rw [varK_eq_varR _ (isReal_hid hP src dst hx)]

theorem isReal_nextX {P : Params} (hP : P.Real) (src dst : Fin 1600000 → BitVec 32)
    {x : Tab 100000 64} (hx : IsReal x) : IsReal (nextX varR P src dst x) :=
  isReal_lin
    (isReal_bnrelu (isReal_hid hP src dst hx) (isRealV_mean (isReal_hid hP src dst hx))
      (varR_nonneg _ (isReal_hid hP src dst hx)) hP.g hP.bt)
    hP.W2 hP.b2

theorem score_eq {P0 P1 P2 : Params} (h0 : P0.Real) (h1 : P1.Real) (h2 : P2.Real)
    (src dst : Fin 1600000 → BitVec 32) (batch : Fin 100000 → BitVec 32) {x : Tab 100000 64}
    (hx : IsReal x) :
    score varK P0 P1 P2 src dst batch x = score varR P0 P1 P2 src dst batch x := by
  have e0 := nextX_eq h0 src dst hx
  have r1 := isReal_nextX h0 src dst hx
  have e1 := nextX_eq h1 src dst r1
  have r2 := isReal_nextX h1 src dst r1
  have e2 := nextX_eq h2 src dst r2
  unfold score
  rw [e0, e1, e2]

end Cert.Algebra

end
-- ==== Proof.KHLib.lean ====
import proofs.«404768_j10737418240832_1_alg».proof.Proof.Spec
import proofs.«404768_j10737418240832_1_alg».proof.Proof.Algebra
import proofs.«404768_j10737418240832_1_alg».proof.Proof.LibRows
import proofs.«404768_j10737418240832_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HLib

open Cert.KernelIdeal Cert.KernelIdeal.Gen Cert.Spec Idealize.ShloMosaic Idealize.ShloMosaic.ValueIdx Idealize.ShloMosaic.TcCoe

variable (x : Vec Ideal S5000x64 .f32) (w : Vec Ideal S64x64 .f32) (b acc : Vec Ideal S1x64 .f32)

/-- One row block of the affine map, at an entry. -/
theorem pay3_apply (r : Fin 5000) (j : Fin 64) :
    k0_pay3 (F := Ideal) x w b (ix2 r j) = (∑ k : Fin 64, x (ix2 r k) * w (ix2 k j)) + b (ix2 0 j) := by
  unfold k0_pay3
  refine (addf_apply _ _ _).trans (congrArg₂ (· + ·) ((Cert.LibRows.matmul_plain_apply dot_S5000x64_S64x64_S5000x64_1_0_0_1_n_n_wf _ _ r j).trans ?_) ?_)
  · refine Finset.sum_congr rfl fun k _ => ?_
    show shapeCast S5000x64 x shapeCasts_S5000x64_S5000x64 (ix2 r k) * shapeCast S64x64 w shapeCasts_S64x64_S64x64 (ix2 k j) = _
    rw [shapeCast_self, shapeCast_self]
  · exact (broadcastTo_1b_ab_apply _ _ r j).trans (congrFun (shapeCast_self b _) _)

/-- The sums of a block's columns over its rows, as a one-row block, at an entry. -/
theorem rowsum_apply (v : FVec Ideal S5000x64 .f32) (j : Fin 64) :
    shapeCast S1x64 (multiReduction (F := Ideal) .add [0] S64 v 0x00000000#32 reduces_S5000x64_S64 (.inl rfl) rfl) shapeCasts_S64_S1x64 (ix2 0 j)
      = ∑ r : Fin 5000, v (ix2 r j) := by
  refine (shapeCast_a_1a_apply _ _ 0 j).trans ((Ideal.multiReduction_add_single v _ reduces_S5000x64_S64 _ _ (ix1 j)).trans ?_)
  exact Finset.sum_congr rfl fun r _ => congrArg v (Shape.idx_ext₂ rfl rfl)

/-- The running column sums after a block: what was there plus the block's column sums. -/
theorem pay4_apply (j : Fin 64) :
    k0_pay4 (F := Ideal) x w b acc (ix2 0 j) = acc (ix2 0 j) + ∑ r : Fin 5000, k0_pay3 (F := Ideal) x w b (ix2 r j) :=
  (addf_apply _ _ _).trans (congrArg₂ (· + ·) (congrFun (shapeCast_self acc _) _) (rowsum_apply _ j))

/-- The running column sums of squares after a block. -/
theorem pay5_apply (j : Fin 64) :
    k0_pay5 (F := Ideal) x w b acc (ix2 0 j) = acc (ix2 0 j) + ∑ r : Fin 5000, k0_pay3 (F := Ideal) x w b (ix2 r j) * k0_pay3 (F := Ideal) x w b (ix2 r j) :=
  (addf_apply _ _ _).trans (congrArg₂ (· + ·) (congrFun (shapeCast_self acc _) _) (rowsum_apply _ j))

theorem hz : (![0, 0] : Fin 2 → Nat) = fun _ => 0 := funext fun a => by fin_cases a <;> rfl

/-- Row `r` of block `t`, of twenty blocks of five thousand rows. -/
def row {N : ℕ} (hN : N = 20) (t : Fin N) (r : Fin 5000) : Fin 100000 := ⟨5000 * t.val + r.val, by omega⟩

/-- The two recurrences of a region's three outputs over its twenty points, and its input blocks as cuts of the tables `A`, `W`, `b`. -/
structure Fold {N : ℕ} (hN : N = 20)
    (outs : (n : ℕ) → n < N → Vec Ideal S5000x64 .f32 × Vec Ideal S1x64 .f32 × Vec Ideal S1x64 .f32)
    (xb : Fin N → Vec Ideal S5000x64 .f32) (wb : Fin N → Vec Ideal S64x64 .f32) (bb : Fin N → Vec Ideal S1x64 .f32)
    (A : Tab 100000 64) (W : Tab 64 64) (b : Fin 64 → EReal) : Prop where
  hA : ∀ t : Fin N, t.val % 20 = 0 → outs t.val t.isLt = (k0_pay3 (xb t) (wb t) (bb t),
    k0_pay4 (xb t) (wb t) (bb t) (k0_pay1 (F := Ideal)), k0_pay5 (xb t) (wb t) (bb t) (k0_pay2 (F := Ideal)))
  hB : ∀ t : Fin N, ¬t.val % 20 = 0 → outs t.val t.isLt = (k0_pay3 (xb t) (wb t) (bb t),
    k0_pay4 (xb t) (wb t) (bb t) (outs (t.val - 1) (Nat.lt_of_le_of_lt (Nat.sub_le _ _) t.isLt)).2.1,
    k0_pay5 (xb t) (wb t) (bb t) (outs (t.val - 1) (Nat.lt_of_le_of_lt (Nat.sub_le _ _) t.isLt)).2.2)
  hx : ∀ t r k, xb t (ix2 r k) = A (row hN t r) k
  hw : ∀ t k j, wb t (ix2 k j) = W k j
  hb : ∀ t j, bb t (ix2 0 j) = b j

namespace Fold

variable {N : ℕ} {hN : N = 20}
  {outs : (n : ℕ) → n < N → Vec Ideal S5000x64 .f32 × Vec Ideal S1x64 .f32 × Vec Ideal S1x64 .f32}
  {xb : Fin N → Vec Ideal S5000x64 .f32} {wb : Fin N → Vec Ideal S64x64 .f32} {bb : Fin N → Vec Ideal S1x64 .f32}
  {A : Tab 100000 64} {W : Tab 64 64} {b : Fin 64 → EReal} (F : Fold hN outs xb wb bb A W b)
include F

/-- The block of the affine map at a point is the rows of the whole map that the point covers. -/
theorem hblk (t : Fin N) (r : Fin 5000) (j : Fin 64) :
    k0_pay3 (F := Ideal) (xb t) (wb t) (bb t) (ix2 r j) = lin A W b (row hN t r) j :=
  (pay3_apply _ _ _ r j).trans (congrArg₂ (· + ·)
    (Finset.sum_congr rfl fun k _ => congrArg₂ (· * ·) (F.hx t r k) (F.hw t k j)) (F.hb t j))

/-- After every point the first output holds that point's block of the map. -/
theorem block_out (t : Fin N) (y : S5000x64.Idx) (i : S100000x64.Idx)
    (h0 : (i 0).val = 5000 * t.val + (y 0).val) (h1 : (i 1).val = (y 1).val) :
    (outs t.val t.isLt).1 y = Spec.mk (lin A W b) i := by
  have e : (outs t.val t.isLt).1 = k0_pay3 (xb t) (wb t) (bb t) := by
    by_cases h : t.val % 20 = 0
    · rw [F.hA t h]
    · rw [F.hB t h]
  rw [e, eq_ix2 y]
  exact (F.hblk t (y 0) (y 1)).trans (congrArg₂ (lin A W b) (Fin.ext h0.symm) (Fin.ext h1.symm))

/-- A running sum that starts at the first block's and gains a block's at each later point ends as the sum over all hundred thousand rows. -/
theorem total (φ : EReal → EReal)
    (pay : Vec Ideal S5000x64 .f32 → Vec Ideal S64x64 .f32 → Vec Ideal S1x64 .f32 → Vec Ideal S1x64 .f32 → FVec Ideal S1x64 .f32)
    (z : FVec Ideal S1x64 .f32) (hz : ∀ i, z i = 0)
    (hpay : ∀ x w b acc (j : Fin 64), pay x w b acc (ix2 0 j) = acc (ix2 0 j) + ∑ r : Fin 5000, φ (k0_pay3 (F := Ideal) x w b (ix2 r j)))
    (a : (n : ℕ) → n < N → Vec Ideal S1x64 .f32)
    (h0 : ∀ t : Fin N, t.val % 20 = 0 → a t.val t.isLt = pay (xb t) (wb t) (bb t) z)
    (hs : ∀ t : Fin N, ¬t.val % 20 = 0 → a t.val t.isLt = pay (xb t) (wb t) (bb t) (a (t.val - 1) (Nat.lt_of_le_of_lt (Nat.sub_le _ _) t.isLt)))
    (h : 19 < N) : a 19 h = Spec.mk (fun (_ : Fin 1) j => ∑ i, φ (lin A W b i j)) := by
  subst hN
  have blk : ∀ (t : Fin 20) acc (j : Fin 64), pay (xb t) (wb t) (bb t) acc (ix2 0 j)
      = acc (ix2 0 j) + ∑ r : Fin 5000, φ (lin A W b (row rfl t r) j) := fun t acc j =>
    (hpay _ _ _ acc j).trans (congrArg (acc (ix2 0 j) + ·) (Finset.sum_congr rfl fun r _ => congrArg φ (F.hblk t r j)))
  have part : ∀ (n : ℕ) (hn : n < 20) (j : Fin 64), a n hn (ix2 0 j)
      = ∑ s : Fin (n + 1), ∑ r : Fin 5000, φ (lin A W b (row rfl ⟨s.val, by omega⟩ r) j) := by
    intro n
    induction n with
    | zero =>
      intro hn j
      rw [h0 ⟨0, hn⟩ rfl, blk, hz, zero_add, Fin.sum_univ_one]
      rfl
    | succ n ih =>
      intro hn j
      rw [hs ⟨n + 1, hn⟩ (by dsimp only; omega), blk]
      refine Eq.trans ?_ (Fin.sum_univ_castSucc _).symm
      exact congrArg₂ (· + ·) (ih (Nat.lt_of_succ_lt hn) j) rfl
  funext i
  obtain ⟨u, j, rfl⟩ : ∃ (u : Fin 1) (j : Fin 64), i = ix2 u j := ⟨i 0, i 1, eq_ix2 i⟩
  obtain rfl : u = 0 := Subsingleton.elim _ _
  exact (part 19 h j).trans (Cert.Algebra.blocks_sum fun i => φ (lin A W b i j)).symm

/-- After the last point the second output holds the column sums of the map. -/
theorem sum_last (h : 19 < N) : (outs 19 h).2.1 = Spec.mk (fun (_ : Fin 1) j => colSum (lin A W b) j) :=
  F.total (fun v => v) k0_pay4 (k0_pay1 (F := Ideal)) (fun _ => Ideal.ofBits_zero_f32) pay4_apply (fun n hn => (outs n hn).2.1)
    (fun t ht => congrArg (·.2.1) (F.hA t ht)) (fun t ht => congrArg (·.2.1) (F.hB t ht)) h

/-- After the last point the third output holds the column sums of the squares. -/
theorem sumsq_last (h : 19 < N) : (outs 19 h).2.2 = Spec.mk (fun (_ : Fin 1) j => colSumSq (lin A W b) j) :=
  F.total (fun v => v * v) k0_pay5 (k0_pay2 (F := Ideal)) (fun _ => Ideal.ofBits_zero_f32) pay5_apply (fun n hn => (outs n hn).2.2)
    (fun t ht => congrArg (·.2.2) (F.hA t ht)) (fun t ht => congrArg (·.2.2) (F.hB t ht)) h

end Fold

end Cert.KernelIdeal.HLib

end
-- ==== Proof.KH0.lean ====
import proofs.«404768_j10737418240832_1_alg».proof.Proof.KHLib
import proofs.«404768_j10737418240832_1_alg».proof.Proof.Gen.KernelIdeal.Frame
import Idealize.ShloMosaic.Lib.Tactic

noncomputable section

namespace Cert.KernelIdeal.HVal0

open Cert.KernelIdeal Cert.KernelIdeal.Gen Cert.KernelIdeal.HLib Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-- The affine map of the aggregate, the weights and the bias as the region finds them. -/
abbrev H : Tab 100000 64 := lin (tab (V c main_v16)) (tab (V c main_v18)) (fun j => V c main_v21 (ix2 0 j))

/-- Block `t` of the aggregate and of the map starts at row `5000 t`. -/
theorem idx_facts : ∀ t : Fin cfg0.N, win0_0.index t (0 : Fin 2) = t.val ∧ win0_0.index t (1 : Fin 2) = 0
    ∧ win0_3.index t (0 : Fin 2) = t.val ∧ win0_3.index t (1 : Fin 2) = 0 :=
  (by decide +kernel : ∀ t : Fin grid0.N, _)

/-- The weights, the bias and each of the two sums are one block. -/
theorem offs : ∀ (t : Fin cfg0.N) (a : Fin 2), win0_1.index t a * main_v18.ty.shape.size a = 0
    ∧ win0_2.index t a * main_v21.ty.shape.size a = 0 ∧ win0_4.index t a * main_v22_1.ty.shape.size a = 0
    ∧ win0_5.index t a * main_v22_2.ty.shape.size a = 0 :=
  (by decide +kernel : ∀ (t : Fin grid0.N) (a : Fin 2), _)

/-- What the three outputs hold after each point, from the point's three input blocks, and what those blocks are. -/
theorem fold : Fold N_0 (outsAt0 V c) (iblk0 V c 0) (iblk0 V c 1) (iblk0 V c 2)
    (tab (V c main_v16)) (tab (V c main_v18)) (fun j => V c main_v21 (ix2 0 j)) where
  hA t h0 := by
    show _ = (k0_pay3 (F := Ideal) _ _ _, k0_pay4 (F := Ideal) _ _ _ (k0_pay1 (F := Ideal)), k0_pay5 (F := Ideal) _ _ _ (k0_pay2 (F := Ideal)))
    rw [outsAt0_A V c t h0]
    unfold out0_A_3 out0_A_4 out0_A_5
    rw [View.read_writes_eq_canon _ _ _ fun _ => cover0_A_3 .., View.read_writes_eq_canon _ _ _ fun _ => cover0_A_4 ..,
      View.read_writes_eq_canon _ _ _ fun _ => cover0_A_5 ..]
    unfold kernelRun0_A
    dsimp only
    sl_unfold_words
    simp only [View.canon_unit_zero (S := S5000x64) hz, View.canon_cons_unit_zero (S := S1x64) hz, View.readCov_unit_zero (S := S1x64) _ hz, View.readAt_eq_ld, (hs0_0 t).read_unread, (hs0_1 t).read_unread, (hs0_2 t).read_unread, View.ld_unit_zero (S := S5000x64) hz, View.ld_unit_zero (S := S64x64) hz, View.ld_unit_zero (S := S1x64) hz]
  hB t h0 := by
    show _ = (k0_pay3 (F := Ideal) _ _ _, k0_pay4 (F := Ideal) _ _ _ _, k0_pay5 (F := Ideal) _ _ _ _)
    rw [outsAt0_B V c t h0]
    unfold out0_B_3 out0_B_4 out0_B_5
    rw [View.read_writes_eq_canon _ _ _ fun _ => cover0_B_3 .., View.read_writes_eq_canon _ _ _ fun _ => cover0_B_4 ..,
      View.read_writes_eq_canon _ _ _ fun _ => cover0_B_5 ..]
    unfold kernelRun0_B
    dsimp only
    sl_unfold_words
    simp only [View.canon_unit_zero (S := S5000x64) hz, View.canon_cons_unit_zero (S := S1x64) hz, View.readAt_eq_ld, (hs0_0 t).read_unread, (hs0_1 t).read_unread, (hs0_2 t).read_unread, (hs0_4 t).read_unread, (hs0_5 t).read_unread, View.ld_unit_zero (S := S5000x64) hz, View.ld_unit_zero (S := S64x64) hz, View.ld_unit_zero (S := S1x64) hz]
  hx t r k := by
    obtain ⟨e0, e1, -⟩ := idx_facts t
    unfold iblk0
    rw [View.read_apply]
    exact congrArg (V c main_v16) (Shape.idx_ext₂
      (by show win0_0.index t (0 : Fin 2) * 5000 + 1 * r.val = 5000 * t.val + r.val; rw [e0]; omega)
      (by show win0_0.index t (1 : Fin 2) * 64 + 1 * k.val = k.val; rw [e1]; omega))
  hw t k j := congrFun (Memref.read_access_unit_zero (Elt Ideal) main_v18 (funext fun a => (offs t a).1) _ _) _
  hb t j := congrFun (Memref.read_access_unit_zero (Elt Ideal) main_v21 (funext fun a => (offs t a).2.1) _ _) _

/-- The first output array ends holding the map: block `t` holds rows `5000 t … 5000 t + 4999`, and row `r` lies in block `r / 5000`. -/
theorem h_out : (dat0 V c).arrAt 3 cfg0.N = mk (H V c) := by
  refine (dat0 V c).arrAt_eq_of_cover 3 _ (fun t _ => ?_) fun i => ?_
  · obtain ⟨-, -, e0, e1⟩ := idx_facts t
    show (cfg0.win 3).cut _ ((dat0 V c).after 3 t) = _
    rw [after0_3]
    funext y
    refine (fold V c).block_out t y (((cfg0.win 3).blk t).view.emb y) ?_ ?_
    · show win0_3.index t (0 : Fin 2) * 5000 + 1 * (y 0).val = 5000 * t.val + (y 0).val
      rw [e0]; omega
    · show win0_3.index t (1 : Fin 2) * 64 + 1 * (y 1).val = (y 1).val
      rw [e1]; omega
  · have h0 : (i 0).val < 100000 := (i 0).isLt
    have h1 : (i 1).val < 64 := (i 1).isLt
    obtain ⟨t, ht⟩ : ∃ t : Fin cfg0.N, t.val = (i 0).val / 5000 :=
      ⟨⟨_, by rw [show cfg0.N = 20 from N_0]; omega⟩, rfl⟩
    obtain ⟨-, -, e0, e1⟩ := idx_facts t
    refine ⟨t, flush0_3 t, ?_⟩
    show i ∈ ((View.whole main_v22_0).slice (win0_3.rect t)).set
    rw [View.set_slice_whole, Rect.mem_set_unit]
    intro a
    match a with
    | ⟨0, _⟩ =>
      show win0_3.index t (0 : Fin 2) * 5000 ≤ (i 0).val ∧ (i 0).val < win0_3.index t (0 : Fin 2) * 5000 + 5000
      rw [e0]; omega
    | ⟨1, _⟩ =>
      show win0_3.index t (1 : Fin 2) * 64 ≤ (i 1).val ∧ (i 1).val < win0_3.index t (1 : Fin 2) * 64 + 64
      rw [e1]; omega

theorem lastLt : 19 < cfg0.N := by decide
/-- The last point. -/
abbrev last : Fin cfg0.N := ⟨19, lastLt⟩

theorem off4 : (fun a => win0_4.index last a * main_v22_1.ty.shape.size a) = fun _ => 0 := funext fun a => (offs last a).2.2.1
theorem off5 : (fun a => win0_5.index last a * main_v22_2.ty.shape.size a) = fun _ => 0 := funext fun a => (offs last a).2.2.2

/-- The second output array ends holding the column sums of the map. -/
theorem sum_out : (dat0 V c).arrAt 4 cfg0.N = mk (fun (_ : Fin 1) j => colSum (H V c) j) := by
  refine ((dat0 V c).arrAt_eq_of_cover 4 _ (fun t hf => ?_) fun i => ⟨last, (flush0_4 _).mpr rfl, ?_⟩).trans ((fold V c).sum_last lastLt)
  · obtain rfl : t = last := Fin.ext (by show t.val = 19; have := (flush0_4 t).mp hf; have := lt_of_lt_of_eq t.isLt N_0; omega)
    show (cfg0.win 4).cut _ ((dat0 V c).after 4 _) = _
    rw [after0_4]
    exact (Memref.read_access_unit_zero (Elt Ideal) main_v22_1 off4 (fun a => by rw [congrFun off4 a]; simp) _).symm
  · show i ∈ ((View.whole main_v22_1).slice (win0_4.rect last)).set
    rw [View.set_slice_whole]
    exact View.mem_set_unit_zero off4 _ i

/-- The third output array ends holding the column sums of its squares. -/
theorem sumsq_out : (dat0 V c).arrAt 5 cfg0.N = mk (fun (_ : Fin 1) j => colSumSq (H V c) j) := by
  refine ((dat0 V c).arrAt_eq_of_cover 5 _ (fun t hf => ?_) fun i => ⟨last, (flush0_5 _).mpr rfl, ?_⟩).trans ((fold V c).sumsq_last lastLt)
  · obtain rfl : t = last := Fin.ext (by show t.val = 19; have := (flush0_5 t).mp hf; have := lt_of_lt_of_eq t.isLt N_0; omega)
    show (cfg0.win 5).cut _ ((dat0 V c).after 5 _) = _
    rw [after0_5]
    exact (Memref.read_access_unit_zero (Elt Ideal) main_v22_2 off5 (fun a => by rw [congrFun off5 a]; simp) _).symm
  · show i ∈ ((View.whole main_v22_2).slice (win0_5.rect last)).set
    rw [View.set_slice_whole]
    exact View.mem_set_unit_zero off5 _ i

end Cert.KernelIdeal.HVal0

end
-- ==== Proof.KNLib.lean ====
import proofs.«404768_j10737418240832_1_alg».proof.Proof.Spec
import proofs.«404768_j10737418240832_1_alg».proof.Proof.Algebra
import proofs.«404768_j10737418240832_1_alg».proof.Proof.LibRows
import proofs.«404768_j10737418240832_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe
open Idealize.ShloMosaic.Pipeline (Window)

namespace Cert.KernelIdeal.NLib

open Cert.KernelIdeal Cert.KernelIdeal.Gen Cert.Spec Idealize.ShloMosaic.ValueIdx

theorem hz : (![0, 0] : Fin 2 → Nat) = fun _ => 0 := funext fun a => by fin_cases a <;> rfl

section Zero
variable {Val : EltTy → Type} [∀ e, Nonempty (Val e)] {a b : ℕ} {e : EltTy}
  (inb : ∀ x : Fin (⟨2, ![a, b]⟩ : Shape).rank, (![0, 0] : Fin 2 → ℕ) x + (![a, b] : Fin 2 → ℕ) x ≤ (⟨2, ![a, b]⟩ : Shape).size x)
  (w : (⟨2, ![a, b]⟩ : Shape).Idx → Val e)

theorem ld0 : View.ld w (Rect.unit (s := ⟨2, ![a, b]⟩) ![0, 0] ![a, b] inb) = w := View.ld_unit_zero hz inb w
theorem canon0 (L : List (View.Piece Val ⟨2, ![a, b]⟩ e)) :
    View.canon ((⟨Rect.unit (s := ⟨2, ![a, b]⟩) ![0, 0] ![a, b] inb, w⟩ : View.Piece Val ⟨2, ![a, b]⟩ e) :: L) = w :=
  View.canon_cons_unit_zero hz inb w L
theorem readCov0 {sig : RefSig} {κ : Kind} {sp : Space} (v : View sig κ sp ⟨2, ![a, b]⟩ e) :
    v.readCov [(⟨Rect.unit (s := ⟨2, ![a, b]⟩) ![0, 0] ![a, b] inb, w⟩ : View.Piece Val ⟨2, ![a, b]⟩ e)]
      (Rect.unit (s := ⟨2, ![a, b]⟩) ![0, 0] ![a, b] inb).toLoadRect = w :=
  View.readCov_unit_zero v hz inb w
end Zero

/-- A block's element sits in the array, on each axis, at the block index times the block size plus its coordinate. -/
theorem emb_eq {G : Pipeline.Grid} (w : Window sig G) (t : Fin G.N) (y : (w.xblock (G.coords t)).Idx) (z : w.shape.Idx)
    (h : ∀ a, w.index t a * w.size a + (y a).val = (z a).val) : (w.rect t).emb y = z :=
  funext fun a => Fin.ext ((w.rect_emb_val t y a).trans (h a))

theorem emb_fixed {G : Pipeline.Grid} (w : Window sig G) (t : Fin G.N) (h : ∀ a, w.index t a = 0)
    (y : (w.xblock (G.coords t)).Idx) (z : w.shape.Idx) (hz : ∀ a, (y a).val = (z a).val) : (w.rect t).emb y = z :=
  emb_eq w t y z fun a => by rw [h a, Nat.zero_mul, Nat.zero_add]; exact hz a

theorem matW_apply (A : FVec Ideal S5000x64 .bf16) (B : FVec Ideal S64x64 .bf16) (r : Fin 5000) (j : Fin 64) :
    matmul dot_S5000x64_S64x64_S5000x64_1_0_0_1_n_n none A B (constant S5000x64 .f32 0x00000000#32) (ix2 r j)
      = ∑ k : Fin 64, A (ix2 r k) * B (ix2 k j) :=
  Cert.LibRows.matmul_plain_apply dot_S5000x64_S64x64_S5000x64_1_0_0_1_n_n_wf A B r j

theorem lhsP_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem lhsP_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide),
    dif_pos (show (1 : Fin S5000x128.rank) ∈ dot_S5000x128_S5000x64_S128x64_0_0_1_1_n_n.lhsNonContracting by decide)]
  rfl
theorem rhsP_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem rhsP_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide),
    dif_pos (show (1 : Fin S5000x64.rank) ∈ dot_S5000x128_S5000x64_S128x64_0_0_1_1_n_n.rhsNonContracting by decide)]
  rfl

theorem matP_apply (A : FVec Ideal S5000x128 .bf16) (B : FVec Ideal S5000x64 .bf16) (g : Fin 128) (j : Fin 64) :
    matmul dot_S5000x128_S5000x64_S128x64_0_0_1_1_n_n none A B (constant S128x64 .f32 0x00000000#32) (ix2 g j)
      = ∑ r : Fin 5000, A (ix2 r g) * B (ix2 r j) := by
  simp only [matmul]
  rw [Ideal.matmul_constant_zero_apply, ← Equiv.sum_comp (contrEquiv1 dot_S5000x128_S5000x64_S128x64_0_0_1_1_n_n 5000 rfl rfl).symm]
  refine Finset.sum_congr rfl fun k _ => ?_
  have hk := contrEquiv1_symm_val dot_S5000x128_S5000x64_S128x64_0_0_1_1_n_n 5000 rfl rfl k
  congr 2 <;> refine funext fun a => Fin.ext ?_
  · match a with
    | ⟨0, _⟩ => exact (lhsP_0 _ _).trans hk
    | ⟨1, _⟩ => exact lhsP_1 _ _
  · match a with
    | ⟨0, _⟩ => exact (rhsP_0 _ _).trans hk
    | ⟨1, _⟩ => exact rhsP_1 _ _

theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem cmpi_apply {s : Shape} {w : Nat} (p : CmpIPredicate) (x y : IVec s w) (i : s.Idx) :
    cmpi p x y i = IntOp.cmpi p (x i) (y i) := rfl
theorem rsqrt_apply {s : Shape} {φ : FTy} (a : FVec Ideal s φ) (i : s.Idx) : rsqrt a i = Ideal.rsqrt (a i) := rfl
theorem scalar_ofBits_f32 (b : BitVec 32) : (Scalar.ofBits .f32 b : Ideal .f32) = Ideal.ofBits .f32 b := rfl

theorem iota_lane_apply (h : S1x128.Iotas .tc 32 [1]) (g : Fin 128) :
    iota .tc S1x128 32 [1] h (ix2 (0 : Fin 1) g) = BitVec.ofNat 32 g.val :=
  iota_single_apply .tc S1x128 32 1 h (ix2 0 g)

theorem onehot_entry (w : BitVec 32) (g : Fin 128) :
    (FloatOps.sitofp (F := Ideal) .f32 ((IntOp.cmpi .eq w (BitVec.ofNat 32 g.val)).setWidth 32) : EReal)
      = if w.toInt = (g.val : Int) then 1 else 0 := by
  have hg : g.val < 128 := g.isLt
  have hto : (BitVec.ofNat 32 g.val).toInt = (g.val : Int) := by
    rw [BitVec.toInt_eq_toNat_cond, BitVec.toNat_ofNat]
    have e : g.val % 2 ^ 32 = g.val := Nat.mod_eq_of_lt (by omega)
    rw [e, if_pos (by omega)]
  by_cases h : w = BitVec.ofNat 32 g.val
  · subst h
    rw [if_pos hto]
    have e : IntOp.cmpi .eq (BitVec.ofNat 32 g.val) (BitVec.ofNat 32 g.val) = 1#1 := by simp [IntOp.cmpi]
    rw [e]
    show ((((1#1 : BitVec 1).setWidth 32).toInt : ℝ) : EReal) = 1
    rw [show ((1#1 : BitVec 1).setWidth 32).toInt = 1 by decide]
    simp
  · have hne : ¬w.toInt = (g.val : Int) := fun e => h (BitVec.eq_of_toInt_eq (e.trans hto.symm))
    rw [if_neg hne]
    have e : IntOp.cmpi .eq w (BitVec.ofNat 32 g.val) = 0#1 := by
      show BitVec.ofBool (w == BitVec.ofNat 32 g.val) = 0#1
      rw [beq_eq_false_iff_ne.mpr h]; rfl
    rw [e]
    show ((((0#1 : BitVec 1).setWidth 32).toInt : ℝ) : EReal) = 0
    rw [show ((0#1 : BitVec 1).setWidth 32).toInt = 0 by decide]
    simp

theorem pay3_apply (x0 : Vec Ideal S5000x64 .f32) (xv xm xg xb : Vec Ideal S1x64 .f32) (xw : Vec Ideal S64x64 .f32)
    (xc : Vec Ideal S1x64 .f32) (r : Fin 5000) (j : Fin 64) :
    k1_pay3 x0 xv xm xg xb xw xc (ix2 r j)
      = (∑ k : Fin 64, max ((x0 (ix2 r k) - xm (ix2 (0 : Fin 1) k)) * Ideal.rsqrt (xv (ix2 (0 : Fin 1) k) + Ideal.ofBits .f32 0x3727C5AC#32)
            * xg (ix2 (0 : Fin 1) k) + xb (ix2 (0 : Fin 1) k)) 0 * xw (ix2 k j)) + xc (ix2 (0 : Fin 1) j) := by
  unfold k1_pay3
  simp only [shapeCast_self, addf_apply, matW_apply, broadcastTo_1b_ab_apply, truncf_apply, maximumf_apply, mulf_apply,
    subf_apply, broadcast_apply, rsqrt_apply, scalar_ofBits_f32, Ideal.ofBits_zero_f32]

theorem pay1_apply (X : FVec Ideal S5000x64 .f32) (bt : Vec Ideal S5000x1 .i32) (acc : Vec Ideal S128x64 .f32)
    (g : Fin 128) (j : Fin 64) :
    k1_pay1 X bt acc (ix2 g j)
      = acc (ix2 g j) + ∑ r : Fin 5000, (if (bt (ix2 r (0 : Fin 1)) : BitVec 32).toInt = (g.val : Int) then X (ix2 r j) else 0) := by
  unfold k1_pay1
  simp only [shapeCast_self, addf_apply, matP_apply, truncf_apply, sitofp_apply, extui_apply, cmpi_apply,
    broadcastTo_a1_ab_apply, broadcastTo_1b_ab_apply]
  rw [iota_lane_apply]
  simp only [onehot_entry, ite_mul, one_mul, zero_mul]

/-- Row `r` of block `t` among the 100000 rows. -/
def row {N : ℕ} (hN : N = 20) (t : Fin N) (r : Fin 5000) : Fin 100000 :=
  ⟨5000 * t.val + r.val, by have := t.isLt; have := r.isLt; omega⟩

section Acc

variable {N : ℕ} (hN : N = 20) (outs : (n : ℕ) → n < N → Vec Ideal S5000x64 .f32 × Vec Ideal S128x64 .f32)
  (Xb : Fin N → FVec Ideal S5000x64 .f32) (bB : Fin N → Vec Ideal S5000x1 .i32)
  (hA : ∀ t : Fin N, t.val % 20 = 0 → outs t.val t.isLt = (Xb t, k1_pay1 (Xb t) (bB t) (k1_pay2 (F := Ideal))))
  (hB : ∀ t : Fin N, ¬t.val % 20 = 0 → outs t.val t.isLt
    = (Xb t, k1_pay1 (Xb t) (bB t) (outs (t.val - 1) (Nat.lt_of_le_of_lt (Nat.sub_le _ _) t.isLt)).2))
  (X : Tab 100000 64) (batch : Fin 100000 → BitVec 32)
  (hX : ∀ t r j, Xb t (ix2 r j) = X (row hN t r) j) (hb : ∀ t r, bB t (ix2 r (0 : Fin 1)) = batch (row hN t r))

include hA hB in
theorem outs_fst (t : Fin N) : (outs t.val t.isLt).1 = Xb t := by
  by_cases h0 : t.val % 20 = 0
  · rw [hA t h0]
  · rw [hB t h0]

/-- Block `t`'s part of the sum of graph `g`, column `j`. -/
def blockSum (t : Fin N) (g : Fin 128) (j : Fin 64) : EReal :=
  ∑ r : Fin 5000, if (batch (row hN t r)).toInt = (g.val : Int) then X (row hN t r) j else 0

include hX hb in
theorem acc_step (t : Fin N) (acc : Vec Ideal S128x64 .f32) (g : Fin 128) (j : Fin 64) :
    k1_pay1 (Xb t) (bB t) acc (ix2 g j) = acc (ix2 g j) + blockSum hN X batch t g j := by
  rw [pay1_apply]
  unfold blockSum
  simp only [hX, hb]

include hA hB hX hb in
/-- After point `n` the accumulator holds the parts of blocks `0 … n`: induction on the point. -/
theorem outs_snd : ∀ (n : ℕ) (h : n < N) (g : Fin 128) (j : Fin 64), (outs n h).2 (ix2 g j)
      = ∑ t : Fin (n + 1), blockSum hN X batch ⟨t.val, Nat.lt_of_lt_of_le t.isLt h⟩ g j
  | 0, h, g, j => by
    rw [hA ⟨0, h⟩ rfl]
    dsimp only
    rw [acc_step hN Xb bB X batch hX hb, Fin.sum_univ_castSucc, Fin.sum_univ_zero]
    exact congrArg (· + _) Ideal.ofBits_zero_f32
  | n + 1, h, g, j => by
    have e : outs (n + 1) h = (Xb ⟨n + 1, h⟩, k1_pay1 (Xb ⟨n + 1, h⟩) (bB ⟨n + 1, h⟩) (outs n (Nat.lt_of_succ_lt h)).2) :=
      hB ⟨n + 1, h⟩ (by show ¬(n + 1) % 20 = 0; omega)
    rw [e]
    dsimp only
    rw [acc_step hN Xb bB X batch hX hb, outs_snd n (Nat.lt_of_succ_lt h) g j]
    exact (Fin.sum_univ_castSucc fun t : Fin (n + 1 + 1) => blockSum hN X batch ⟨t.val, Nat.lt_of_lt_of_le t.isLt h⟩ g j).symm

include hA hB hX hb in
/-- After the last point the accumulator is the sum over all 100000 rows. -/
theorem acc_last (t : Fin N) (ht : t.val % 20 = 19) : (outs t.val t.isLt).2 = mk (pool batch X) := by
  obtain ⟨n, h⟩ := t
  obtain rfl : n = 19 := by dsimp only at ht; omega
  funext y
  obtain ⟨g, j, rfl⟩ : ∃ (g : Fin 128) (j : Fin 64), y = ix2 g j := ⟨y 0, y 1, eq_ix2 y⟩
  rw [outs_snd hN outs Xb bB hA hB X batch hX hb 19 h g j, mk_ix2]
  unfold Cert.Spec.pool
  rw [Cert.Algebra.blocks_sum]
  rfl

end Acc

end Cert.KernelIdeal.NLib

end
-- ==== Proof.KN1.lean ====
import proofs.«404768_j10737418240832_1_alg».proof.Proof.KNLib
import proofs.«404768_j10737418240832_1_alg».proof.Proof.Gen.KernelIdeal.Frame
import Idealize.ShloMosaic.Lib.Tactic

noncomputable section

open Idealize.ShloMosaic Idealize.ShloMosaic.TcCoe

namespace Cert.KernelIdeal.NVal1

open Cert.KernelIdeal Cert.KernelIdeal.Gen Cert.Spec Idealize.ShloMosaic.ValueIdx

variable (V : (c : Dev nD) → (b : Ref sig .tc) → Buf (Elt Ideal) ((c : Thread nD τ).loc b)) (c : Dev nD)

abbrev hT : Tab 100000 64 := tab (V c main_v22_0)
abbrev muT : Fin 64 → EReal := fun j => V c main_v24 (ix2 0 j)
abbrev varT : Fin 64 → EReal := fun j => V c main_v28 (ix2 0 j)
abbrev gT : Fin 64 → EReal := fun j => V c main_v31 (ix2 0 j)
abbrev btT : Fin 64 → EReal := fun j => V c main_v34 (ix2 0 j)
abbrev w2T : Tab 64 64 := tab (V c main_v36)
abbrev b2T : Fin 64 → EReal := fun j => V c main_v39 (ix2 0 j)
abbrev batchT : Fin 100000 → BitVec 32 := fun e => V c main_v4 (ix2 e 0)
abbrev X : Tab 100000 64 := lin (bnrelu (hT V c) (muT V c) (varT V c) (gT V c) (btT V c)) (w2T V c) (b2T V c)

/-- The block of x computed at point `t`. -/
abbrev xB (t : Fin cfg1.N) : FVec Ideal S5000x64 .f32 :=
  k1_pay3 (iblk1 V c 0 t) (iblk1 V c 2 t) (iblk1 V c 1 t) (iblk1 V c 3 t) (iblk1 V c 4 t) (iblk1 V c 5 t) (iblk1 V c 6 t)

theorem outs_A (t : Fin cfg1.N) (h0 : t.val % 20 = 0) :
    outsAt1 V c t.val t.isLt = (xB V c t, k1_pay1 (xB V c t) (iblk1 V c 7 t) (k1_pay2 (F := Ideal))) := by
  rw [outsAt1_A V c t h0]
  unfold out1_A_8 out1_A_9
  rw [View.read_writes_eq_canon _ _ _ (fun y => cover1_A_8 ..), View.read_writes_eq_canon _ _ _ (fun y => cover1_A_9 ..)]
  unfold kernelRun1_A
  dsimp only
  sl_unfold_words
  simp only [NLib.canon0, NLib.readCov0, NLib.ld0, View.readAt_eq_ld, Memref.IsWhole.read_unread]

theorem outs_B (t : Fin cfg1.N) (h0 : ¬t.val % 20 = 0) :
    outsAt1 V c t.val t.isLt
      = (xB V c t, k1_pay1 (xB V c t) (iblk1 V c 7 t) (outsAt1 V c (t.val - 1) (Nat.lt_of_le_of_lt (Nat.sub_le _ _) t.isLt)).2) := by
  rw [outsAt1_B V c t h0]
  unfold out1_B_8 out1_B_9
  rw [View.read_writes_eq_canon _ _ _ (fun y => cover1_B_8 ..), View.read_writes_eq_canon _ _ _ (fun y => cover1_B_9 ..)]
  unfold kernelRun1_B
  dsimp only
  sl_unfold_words
  simp only [NLib.canon0, NLib.ld0, View.readAt_eq_ld, Memref.IsWhole.read_unread]

theorem idx_rows : ∀ t : Fin cfg1.N, win1_0.index t = ![t.val, 0] ∧ win1_7.index t = ![t.val, 0] ∧ win1_8.index t = ![t.val, 0] :=
  (by decide +kernel : ∀ t : Fin grid1.N, _)
theorem idx_fixed : ∀ t : Fin cfg1.N, (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0) ∧ ∀ a, win1_9.index t a = 0 :=
  (by decide +kernel : ∀ t : Fin grid1.N, _)

theorem hN : cfg1.N = 20 := N_1

abbrev row (t : Fin cfg1.N) (r : Fin 5000) : Fin 100000 := NLib.row hN t r

theorem hB_apply (t : Fin cfg1.N) (r : Fin 5000) (k : Fin 64) : iblk1 V c 0 t (ix2 r k) = hT V c (row t r) k := by
  refine congrArg (V c main_v22_0) (NLib.emb_eq win1_0 t _ _ fun a => ?_)
  rw [(idx_rows t).1]
  match a with
  | ⟨0, _⟩ => show t.val * 5000 + r.val = 5000 * t.val + r.val; omega
  | ⟨1, _⟩ => exact Nat.zero_add _

theorem batchB_apply (t : Fin cfg1.N) (r : Fin 5000) : iblk1 V c 7 t (ix2 r (0 : Fin 1)) = batchT V c (row t r) := by
  refine congrArg (V c main_v4) (NLib.emb_eq win1_7 t _ _ fun a => ?_)
  rw [(idx_rows t).2.1]
  match a with
  | ⟨0, _⟩ => show t.val * 5000 + r.val = 5000 * t.val + r.val; omega
  | ⟨1, _⟩ => rfl

theorem muB_eq (t : Fin cfg1.N) : iblk1 V c 1 t = V c main_v24 :=
  funext fun y => congrArg _ (NLib.emb_fixed win1_1 t (idx_fixed t).1 y y fun _ => rfl)
theorem varB_eq (t : Fin cfg1.N) : iblk1 V c 2 t = V c main_v28 :=
  funext fun y => congrArg _ (NLib.emb_fixed win1_2 t (idx_fixed t).2.1 y y fun _ => rfl)
theorem gB_eq (t : Fin cfg1.N) : iblk1 V c 3 t = V c main_v31 :=
  funext fun y => congrArg _ (NLib.emb_fixed win1_3 t (idx_fixed t).2.2.1 y y fun _ => rfl)
theorem btB_eq (t : Fin cfg1.N) : iblk1 V c 4 t = V c main_v34 :=
  funext fun y => congrArg _ (NLib.emb_fixed win1_4 t (idx_fixed t).2.2.2.1 y y fun _ => rfl)
theorem wB_eq (t : Fin cfg1.N) : iblk1 V c 5 t = V c main_v36 :=
  funext fun y => congrArg _ (NLib.emb_fixed win1_5 t (idx_fixed t).2.2.2.2.1 y y fun _ => rfl)
theorem b2B_eq (t : Fin cfg1.N) : iblk1 V c 6 t = V c main_v39 :=
  funext fun y => congrArg _ (NLib.emb_fixed win1_6 t (idx_fixed t).2.2.2.2.2.1 y y fun _ => rfl)

theorem xB_apply (t : Fin cfg1.N) (r : Fin 5000) (j : Fin 64) : xB V c t (ix2 r j) = X V c (row t r) j := by
  refine (NLib.pay3_apply (iblk1 V c 0 t) (iblk1 V c 2 t) (iblk1 V c 1 t) (iblk1 V c 3 t) (iblk1 V c 4 t) (iblk1 V c 5 t) (iblk1 V c 6 t) r j).trans ?_
  simp only [hB_apply V c, muB_eq V c, varB_eq V c, gB_eq V c, btB_eq V c, wB_eq V c, b2B_eq V c]
  rfl

/-- Row `i` of the 100000 is row `i % 5000` of block `i / 5000`. -/
theorem x_out : (dat1 V c).arrAt 8 cfg1.N = mk (X V c) := by
  refine (dat1 V c).arrAt_eq_of_cover 8 (mk (X V c)) (fun t _ => ?_) fun i => ?_
  · show (cfg1.win 8).cut (grid1.coords t) ((dat1 V c).after 8 t) = _
    rw [after1_8, NLib.outs_fst (outsAt1 V c) (xB V c) (iblk1 V c 7) (outs_A V c) (outs_B V c) t]
    funext y
    obtain ⟨r, j, rfl⟩ : ∃ (r : Fin 5000) (j : Fin 64), y = ix2 r j := ⟨y 0, y 1, eq_ix2 y⟩
    refine (xB_apply V c t r j).trans (congrArg (mk (X V c)) (NLib.emb_eq win1_8 t (ix2 r j) (ix2 (row t r) j) fun a => ?_)).symm
    rw [(idx_rows t).2.2]
    match a with
    | ⟨0, _⟩ => show t.val * 5000 + r.val = 5000 * t.val + r.val; omega
    | ⟨1, _⟩ => exact Nat.zero_add _
  · have hi0 : (i 0).val < 100000 := (i 0).isLt
    have hi1 : (i 1).val < 64 := (i 1).isLt
    obtain ⟨t, ht⟩ : ∃ t : Fin cfg1.N, t.val = (i 0).val / 5000 := ⟨⟨(i 0).val / 5000, by rw [hN]; omega⟩, rfl⟩
    refine ⟨t, flush1_8 t, ?_⟩
    show i ∈ ((View.whole main_v40_0).slice (win1_8.rect t)).set
    rw [View.set_slice_whole, Rect.mem_set_unit, (idx_rows t).2.2]
    intro a
    match a with
    | ⟨0, _⟩ => show t.val * 5000 ≤ (i 0).val ∧ (i 0).val < t.val * 5000 + 5000; omega
    | ⟨1, _⟩ => show 0 * 64 ≤ (i 1).val ∧ (i 1).val < 0 * 64 + 64; omega

theorem pool_out : (dat1 V c).arrAt 9 cfg1.N = mk (pool (batchT V c) (X V c)) := by
  refine (dat1 V c).arrAt_eq_of_cover 9 _ (fun t hf => ?_) fun i => ?_
  · show (cfg1.win 9).cut (grid1.coords t) ((dat1 V c).after 9 t) = _
    rw [after1_9, NLib.acc_last hN (outsAt1 V c) (xB V c) (iblk1 V c 7) (outs_A V c) (outs_B V c) (X V c) (batchT V c)
      (xB_apply V c) (batchB_apply V c) t ((flush1_9 t).mp hf)]
    generalize mk (pool (batchT V c) (X V c)) = P
    have key : ∀ y : S128x64.Idx, P y = P (((cfg1.win 9).blk t).view.emb y) := fun y =>
      congrArg P (funext fun a => Fin.ext (by
        match a with
        | ⟨0, _⟩ => show (y 0).val = win1_9.index t 0 * 128 + 1 * (y 0).val; rw [(idx_fixed t).2.2.2.2.2.2]; omega
        | ⟨1, _⟩ => show (y 1).val = win1_9.index t 1 * 64 + 1 * (y 1).val; rw [(idx_fixed t).2.2.2.2.2.2]; omega))
    exact funext key
  · have hi0 : (i 0).val < 128 := (i 0).isLt
    have hi1 : (i 1).val < 64 := (i 1).isLt
    obtain ⟨t, ht⟩ : ∃ t : Fin cfg1.N, t.val = 19 := ⟨⟨19, by rw [hN]; omega⟩, rfl⟩
    refine ⟨t, (flush1_9 t).mpr (by rw [ht]), ?_⟩
    show i ∈ ((View.whole main_v40_1).slice (win1_9.rect t)).set
    rw [View.set_slice_whole, Rect.mem_set_unit]
    intro a
    match a with
    | ⟨0, _⟩ => show win1_9.index t 0 * 128 ≤ (i 0).val ∧ (i 0).val < win1_9.index t 0 * 128 + 128; rw [(idx_fixed t).2.2.2.2.2.2]; omega
    | ⟨1, _⟩ => show win1_9.index t 1 * 64 ≤ (i 1).val ∧ (i 1).val < win1_9.index t 1 * 64 + 64; rw [(idx_fixed t).2.2.2.2.2.2]; omega

end Cert.KernelIdeal.NVal1

end
-- ==== Proof.KH2.lean ====
import proofs.«404768_j10737418240832_1_alg».proof.Proof.KHLib
import proofs.«404768_j10737418240832_1_alg».proof.Proof.Gen.KernelIdeal.Frame
import Idealize.ShloMosaic.Lib.Tactic

noncomputable section

namespace Cert.KernelIdeal.HVal2

open Cert.KernelIdeal Cert.KernelIdeal.Gen Cert.KernelIdeal.HLib Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-- The affine map of the aggregate, the weights and the bias as the region finds them. -/
abbrev H : Tab 100000 64 := lin (tab (V c main_v60)) (tab (V c main_v62)) (fun j => V c main_v65 (ix2 0 j))

/-- Block `t` of the aggregate and of the map starts at row `5000 t`. -/
theorem idx_facts : ∀ t : Fin cfg2.N, win2_0.index t (0 : Fin 2) = t.val ∧ win2_0.index t (1 : Fin 2) = 0
    ∧ win2_3.index t (0 : Fin 2) = t.val ∧ win2_3.index t (1 : Fin 2) = 0 :=
  (by decide +kernel : ∀ t : Fin grid2.N, _)

/-- The weights, the bias and each of the two sums are one block. -/
theorem offs : ∀ (t : Fin cfg2.N) (a : Fin 2), win2_1.index t a * main_v62.ty.shape.size a = 0
    ∧ win2_2.index t a * main_v65.ty.shape.size a = 0 ∧ win2_4.index t a * main_v66_1.ty.shape.size a = 0
    ∧ win2_5.index t a * main_v66_2.ty.shape.size a = 0 :=
  (by decide +kernel : ∀ (t : Fin grid2.N) (a : Fin 2), _)

/-- What the three outputs hold after each point, from the point's three input blocks, and what those blocks are. -/
theorem fold : Fold N_2 (outsAt2 V c) (iblk2 V c 0) (iblk2 V c 1) (iblk2 V c 2)
    (tab (V c main_v60)) (tab (V c main_v62)) (fun j => V c main_v65 (ix2 0 j)) where
  hA t h0 := by
    show _ = (k2_pay3 (F := Ideal) _ _ _, k2_pay4 (F := Ideal) _ _ _ (k2_pay1 (F := Ideal)), k2_pay5 (F := Ideal) _ _ _ (k2_pay2 (F := Ideal)))
    rw [outsAt2_A V c t h0]
    unfold out2_A_3 out2_A_4 out2_A_5
    rw [View.read_writes_eq_canon _ _ _ fun _ => cover2_A_3 .., View.read_writes_eq_canon _ _ _ fun _ => cover2_A_4 ..,
      View.read_writes_eq_canon _ _ _ fun _ => cover2_A_5 ..]
    unfold kernelRun2_A
    dsimp only
    sl_unfold_words
    simp only [View.canon_unit_zero (S := S5000x64) hz, View.canon_cons_unit_zero (S := S1x64) hz, View.readCov_unit_zero (S := S1x64) _ hz, View.readAt_eq_ld, (hs2_0 t).read_unread, (hs2_1 t).read_unread, (hs2_2 t).read_unread, View.ld_unit_zero (S := S5000x64) hz, View.ld_unit_zero (S := S64x64) hz, View.ld_unit_zero (S := S1x64) hz]
  hB t h0 := by
    show _ = (k2_pay3 (F := Ideal) _ _ _, k2_pay4 (F := Ideal) _ _ _ _, k2_pay5 (F := Ideal) _ _ _ _)
    rw [outsAt2_B V c t h0]
    unfold out2_B_3 out2_B_4 out2_B_5
    rw [View.read_writes_eq_canon _ _ _ fun _ => cover2_B_3 .., View.read_writes_eq_canon _ _ _ fun _ => cover2_B_4 ..,
      View.read_writes_eq_canon _ _ _ fun _ => cover2_B_5 ..]
    unfold kernelRun2_B
    dsimp only
    sl_unfold_words
    simp only [View.canon_unit_zero (S := S5000x64) hz, View.canon_cons_unit_zero (S := S1x64) hz, View.readAt_eq_ld, (hs2_0 t).read_unread, (hs2_1 t).read_unread, (hs2_2 t).read_unread, (hs2_4 t).read_unread, (hs2_5 t).read_unread, View.ld_unit_zero (S := S5000x64) hz, View.ld_unit_zero (S := S64x64) hz, View.ld_unit_zero (S := S1x64) hz]
  hx t r k := by
    obtain ⟨e0, e1, -⟩ := idx_facts t
    unfold iblk2
    rw [View.read_apply]
    exact congrArg (V c main_v60) (Shape.idx_ext₂
      (by show win2_0.index t (0 : Fin 2) * 5000 + 1 * r.val = 5000 * t.val + r.val; rw [e0]; omega)
      (by show win2_0.index t (1 : Fin 2) * 64 + 1 * k.val = k.val; rw [e1]; omega))
  hw t k j := congrFun (Memref.read_access_unit_zero (Elt Ideal) main_v62 (funext fun a => (offs t a).1) _ _) _
  hb t j := congrFun (Memref.read_access_unit_zero (Elt Ideal) main_v65 (funext fun a => (offs t a).2.1) _ _) _

/-- The first output array ends holding the map: block `t` holds rows `5000 t … 5000 t + 4999`, and row `r` lies in block `r / 5000`. -/
theorem h_out : (dat2 V c).arrAt 3 cfg2.N = mk (H V c) := by
  refine (dat2 V c).arrAt_eq_of_cover 3 _ (fun t _ => ?_) fun i => ?_
  · obtain ⟨-, -, e0, e1⟩ := idx_facts t
    show (cfg2.win 3).cut _ ((dat2 V c).after 3 t) = _
    rw [after2_3]
    funext y
    refine (fold V c).block_out t y (((cfg2.win 3).blk t).view.emb y) ?_ ?_
    · show win2_3.index t (0 : Fin 2) * 5000 + 1 * (y 0).val = 5000 * t.val + (y 0).val
      rw [e0]; omega
    · show win2_3.index t (1 : Fin 2) * 64 + 1 * (y 1).val = (y 1).val
      rw [e1]; omega
  · have h0 : (i 0).val < 100000 := (i 0).isLt
    have h1 : (i 1).val < 64 := (i 1).isLt
    obtain ⟨t, ht⟩ : ∃ t : Fin cfg2.N, t.val = (i 0).val / 5000 :=
      ⟨⟨_, by rw [show cfg2.N = 20 from N_2]; omega⟩, rfl⟩
    obtain ⟨-, -, e0, e1⟩ := idx_facts t
    refine ⟨t, flush2_3 t, ?_⟩
    show i ∈ ((View.whole main_v66_0).slice (win2_3.rect t)).set
    rw [View.set_slice_whole, Rect.mem_set_unit]
    intro a
    match a with
    | ⟨0, _⟩ =>
      show win2_3.index t (0 : Fin 2) * 5000 ≤ (i 0).val ∧ (i 0).val < win2_3.index t (0 : Fin 2) * 5000 + 5000
      rw [e0]; omega
    | ⟨1, _⟩ =>
      show win2_3.index t (1 : Fin 2) * 64 ≤ (i 1).val ∧ (i 1).val < win2_3.index t (1 : Fin 2) * 64 + 64
      rw [e1]; omega

theorem lastLt : 19 < cfg2.N := by decide
/-- The last point. -/
abbrev last : Fin cfg2.N := ⟨19, lastLt⟩

theorem off4 : (fun a => win2_4.index last a * main_v66_1.ty.shape.size a) = fun _ => 0 := funext fun a => (offs last a).2.2.1
theorem off5 : (fun a => win2_5.index last a * main_v66_2.ty.shape.size a) = fun _ => 0 := funext fun a => (offs last a).2.2.2

/-- The second output array ends holding the column sums of the map. -/
theorem sum_out : (dat2 V c).arrAt 4 cfg2.N = mk (fun (_ : Fin 1) j => colSum (H V c) j) := by
  refine ((dat2 V c).arrAt_eq_of_cover 4 _ (fun t hf => ?_) fun i => ⟨last, (flush2_4 _).mpr rfl, ?_⟩).trans ((fold V c).sum_last lastLt)
  · obtain rfl : t = last := Fin.ext (by show t.val = 19; have := (flush2_4 t).mp hf; have := lt_of_lt_of_eq t.isLt N_2; omega)
    show (cfg2.win 4).cut _ ((dat2 V c).after 4 _) = _
    rw [after2_4]
    exact (Memref.read_access_unit_zero (Elt Ideal) main_v66_1 off4 (fun a => by rw [congrFun off4 a]; simp) _).symm
  · show i ∈ ((View.whole main_v66_1).slice (win2_4.rect last)).set
    rw [View.set_slice_whole]
    exact View.mem_set_unit_zero off4 _ i

/-- The third output array ends holding the column sums of its squares. -/
theorem sumsq_out : (dat2 V c).arrAt 5 cfg2.N = mk (fun (_ : Fin 1) j => colSumSq (H V c) j) := by
  refine ((dat2 V c).arrAt_eq_of_cover 5 _ (fun t hf => ?_) fun i => ⟨last, (flush2_5 _).mpr rfl, ?_⟩).trans ((fold V c).sumsq_last lastLt)
  · obtain rfl : t = last := Fin.ext (by show t.val = 19; have := (flush2_5 t).mp hf; have := lt_of_lt_of_eq t.isLt N_2; omega)
    show (cfg2.win 5).cut _ ((dat2 V c).after 5 _) = _
    rw [after2_5]
    exact (Memref.read_access_unit_zero (Elt Ideal) main_v66_2 off5 (fun a => by rw [congrFun off5 a]; simp) _).symm
  · show i ∈ ((View.whole main_v66_2).slice (win2_5.rect last)).set
    rw [View.set_slice_whole]
    exact View.mem_set_unit_zero off5 _ i

end Cert.KernelIdeal.HVal2

end
-- ==== Proof.KN3.lean ====
import proofs.«404768_j10737418240832_1_alg».proof.Proof.KNLib
import proofs.«404768_j10737418240832_1_alg».proof.Proof.Gen.KernelIdeal.Frame
import Idealize.ShloMosaic.Lib.Tactic

noncomputable section

open Idealize.ShloMosaic Idealize.ShloMosaic.TcCoe

namespace Cert.KernelIdeal.NVal3

open Cert.KernelIdeal Cert.KernelIdeal.Gen Cert.Spec Idealize.ShloMosaic.ValueIdx

variable (V : (c : Dev nD) → (b : Ref sig .tc) → Buf (Elt Ideal) ((c : Thread nD τ).loc b)) (c : Dev nD)

abbrev hT : Tab 100000 64 := tab (V c main_v66_0)
abbrev muT : Fin 64 → EReal := fun j => V c main_v68 (ix2 0 j)
abbrev varT : Fin 64 → EReal := fun j => V c main_v72 (ix2 0 j)
abbrev gT : Fin 64 → EReal := fun j => V c main_v75 (ix2 0 j)
abbrev btT : Fin 64 → EReal := fun j => V c main_v78 (ix2 0 j)
abbrev w2T : Tab 64 64 := tab (V c main_v80)
abbrev b2T : Fin 64 → EReal := fun j => V c main_v83 (ix2 0 j)
abbrev batchT : Fin 100000 → BitVec 32 := fun e => V c main_v4 (ix2 e 0)
abbrev X : Tab 100000 64 := lin (bnrelu (hT V c) (muT V c) (varT V c) (gT V c) (btT V c)) (w2T V c) (b2T V c)

/-- The block of x computed at point `t`. -/
abbrev xB (t : Fin cfg3.N) : FVec Ideal S5000x64 .f32 :=
  k3_pay3 (iblk3 V c 0 t) (iblk3 V c 2 t) (iblk3 V c 1 t) (iblk3 V c 3 t) (iblk3 V c 4 t) (iblk3 V c 5 t) (iblk3 V c 6 t)

theorem outs_A (t : Fin cfg3.N) (h0 : t.val % 20 = 0) :
    outsAt3 V c t.val t.isLt = (xB V c t, k3_pay1 (xB V c t) (iblk3 V c 7 t) (k3_pay2 (F := Ideal))) := by
  rw [outsAt3_A V c t h0]
  unfold out3_A_8 out3_A_9
  rw [View.read_writes_eq_canon _ _ _ (fun y => cover3_A_8 ..), View.read_writes_eq_canon _ _ _ (fun y => cover3_A_9 ..)]
  unfold kernelRun3_A
  dsimp only
  sl_unfold_words
  simp only [NLib.canon0, NLib.readCov0, NLib.ld0, View.readAt_eq_ld, Memref.IsWhole.read_unread]

theorem outs_B (t : Fin cfg3.N) (h0 : ¬t.val % 20 = 0) :
    outsAt3 V c t.val t.isLt
      = (xB V c t, k3_pay1 (xB V c t) (iblk3 V c 7 t) (outsAt3 V c (t.val - 1) (Nat.lt_of_le_of_lt (Nat.sub_le _ _) t.isLt)).2) := by
  rw [outsAt3_B V c t h0]
  unfold out3_B_8 out3_B_9
  rw [View.read_writes_eq_canon _ _ _ (fun y => cover3_B_8 ..), View.read_writes_eq_canon _ _ _ (fun y => cover3_B_9 ..)]
  unfold kernelRun3_B
  dsimp only
  sl_unfold_words
  simp only [NLib.canon0, NLib.ld0, View.readAt_eq_ld, Memref.IsWhole.read_unread]

theorem idx_rows : ∀ t : Fin cfg3.N, win3_0.index t = ![t.val, 0] ∧ win3_7.index t = ![t.val, 0] ∧ win3_8.index t = ![t.val, 0] :=
  (by decide +kernel : ∀ t : Fin grid3.N, _)
theorem idx_fixed : ∀ t : Fin cfg3.N, (∀ a, win3_1.index t a = 0) ∧ (∀ a, win3_2.index t a = 0) ∧ (∀ a, win3_3.index t a = 0)
    ∧ (∀ a, win3_4.index t a = 0) ∧ (∀ a, win3_5.index t a = 0) ∧ (∀ a, win3_6.index t a = 0) ∧ ∀ a, win3_9.index t a = 0 :=
  (by decide +kernel : ∀ t : Fin grid3.N, _)

theorem hN : cfg3.N = 20 := N_3

abbrev row (t : Fin cfg3.N) (r : Fin 5000) : Fin 100000 := NLib.row hN t r

theorem hB_apply (t : Fin cfg3.N) (r : Fin 5000) (k : Fin 64) : iblk3 V c 0 t (ix2 r k) = hT V c (row t r) k := by
  refine congrArg (V c main_v66_0) (NLib.emb_eq win3_0 t _ _ fun a => ?_)
  rw [(idx_rows t).1]
  match a with
  | ⟨0, _⟩ => show t.val * 5000 + r.val = 5000 * t.val + r.val; omega
  | ⟨1, _⟩ => exact Nat.zero_add _

theorem batchB_apply (t : Fin cfg3.N) (r : Fin 5000) : iblk3 V c 7 t (ix2 r (0 : Fin 1)) = batchT V c (row t r) := by
  refine congrArg (V c main_v4) (NLib.emb_eq win3_7 t _ _ fun a => ?_)
  rw [(idx_rows t).2.1]
  match a with
  | ⟨0, _⟩ => show t.val * 5000 + r.val = 5000 * t.val + r.val; omega
  | ⟨1, _⟩ => rfl

theorem muB_eq (t : Fin cfg3.N) : iblk3 V c 1 t = V c main_v68 :=
  funext fun y => congrArg _ (NLib.emb_fixed win3_1 t (idx_fixed t).1 y y fun _ => rfl)
theorem varB_eq (t : Fin cfg3.N) : iblk3 V c 2 t = V c main_v72 :=
  funext fun y => congrArg _ (NLib.emb_fixed win3_2 t (idx_fixed t).2.1 y y fun _ => rfl)
theorem gB_eq (t : Fin cfg3.N) : iblk3 V c 3 t = V c main_v75 :=
  funext fun y => congrArg _ (NLib.emb_fixed win3_3 t (idx_fixed t).2.2.1 y y fun _ => rfl)
theorem btB_eq (t : Fin cfg3.N) : iblk3 V c 4 t = V c main_v78 :=
  funext fun y => congrArg _ (NLib.emb_fixed win3_4 t (idx_fixed t).2.2.2.1 y y fun _ => rfl)
theorem wB_eq (t : Fin cfg3.N) : iblk3 V c 5 t = V c main_v80 :=
  funext fun y => congrArg _ (NLib.emb_fixed win3_5 t (idx_fixed t).2.2.2.2.1 y y fun _ => rfl)
theorem b2B_eq (t : Fin cfg3.N) : iblk3 V c 6 t = V c main_v83 :=
  funext fun y => congrArg _ (NLib.emb_fixed win3_6 t (idx_fixed t).2.2.2.2.2.1 y y fun _ => rfl)

theorem xB_apply (t : Fin cfg3.N) (r : Fin 5000) (j : Fin 64) : xB V c t (ix2 r j) = X V c (row t r) j := by
  refine (NLib.pay3_apply (iblk3 V c 0 t) (iblk3 V c 2 t) (iblk3 V c 1 t) (iblk3 V c 3 t) (iblk3 V c 4 t) (iblk3 V c 5 t) (iblk3 V c 6 t) r j).trans ?_
  simp only [hB_apply V c, muB_eq V c, varB_eq V c, gB_eq V c, btB_eq V c, wB_eq V c, b2B_eq V c]
  rfl

/-- Row `i` of the 100000 is row `i % 5000` of block `i / 5000`. -/
theorem x_out : (dat3 V c).arrAt 8 cfg3.N = mk (X V c) := by
  refine (dat3 V c).arrAt_eq_of_cover 8 (mk (X V c)) (fun t _ => ?_) fun i => ?_
  · show (cfg3.win 8).cut (grid3.coords t) ((dat3 V c).after 8 t) = _
    rw [after3_8, NLib.outs_fst (outsAt3 V c) (xB V c) (iblk3 V c 7) (outs_A V c) (outs_B V c) t]
    funext y
    obtain ⟨r, j, rfl⟩ : ∃ (r : Fin 5000) (j : Fin 64), y = ix2 r j := ⟨y 0, y 1, eq_ix2 y⟩
    refine (xB_apply V c t r j).trans (congrArg (mk (X V c)) (NLib.emb_eq win3_8 t (ix2 r j) (ix2 (row t r) j) fun a => ?_)).symm
    rw [(idx_rows t).2.2]
    match a with
    | ⟨0, _⟩ => show t.val * 5000 + r.val = 5000 * t.val + r.val; omega
    | ⟨1, _⟩ => exact Nat.zero_add _
  · have hi0 : (i 0).val < 100000 := (i 0).isLt
    have hi1 : (i 1).val < 64 := (i 1).isLt
    obtain ⟨t, ht⟩ : ∃ t : Fin cfg3.N, t.val = (i 0).val / 5000 := ⟨⟨(i 0).val / 5000, by rw [hN]; omega⟩, rfl⟩
    refine ⟨t, flush3_8 t, ?_⟩
    show i ∈ ((View.whole main_v84_0).slice (win3_8.rect t)).set
    rw [View.set_slice_whole, Rect.mem_set_unit, (idx_rows t).2.2]
    intro a
    match a with
    | ⟨0, _⟩ => show t.val * 5000 ≤ (i 0).val ∧ (i 0).val < t.val * 5000 + 5000; omega
    | ⟨1, _⟩ => show 0 * 64 ≤ (i 1).val ∧ (i 1).val < 0 * 64 + 64; omega

theorem pool_out : (dat3 V c).arrAt 9 cfg3.N = mk (pool (batchT V c) (X V c)) := by
  refine (dat3 V c).arrAt_eq_of_cover 9 _ (fun t hf => ?_) fun i => ?_
  · show (cfg3.win 9).cut (grid3.coords t) ((dat3 V c).after 9 t) = _
    rw [after3_9, NLib.acc_last hN (outsAt3 V c) (xB V c) (iblk3 V c 7) (outs_A V c) (outs_B V c) (X V c) (batchT V c)
      (xB_apply V c) (batchB_apply V c) t ((flush3_9 t).mp hf)]
    generalize mk (pool (batchT V c) (X V c)) = P
    have key : ∀ y : S128x64.Idx, P y = P (((cfg3.win 9).blk t).view.emb y) := fun y =>
      congrArg P (funext fun a => Fin.ext (by
        match a with
        | ⟨0, _⟩ => show (y 0).val = win3_9.index t 0 * 128 + 1 * (y 0).val; rw [(idx_fixed t).2.2.2.2.2.2]; omega
        | ⟨1, _⟩ => show (y 1).val = win3_9.index t 1 * 64 + 1 * (y 1).val; rw [(idx_fixed t).2.2.2.2.2.2]; omega))
    exact funext key
  · have hi0 : (i 0).val < 128 := (i 0).isLt
    have hi1 : (i 1).val < 64 := (i 1).isLt
    obtain ⟨t, ht⟩ : ∃ t : Fin cfg3.N, t.val = 19 := ⟨⟨19, by rw [hN]; omega⟩, rfl⟩
    refine ⟨t, (flush3_9 t).mpr (by rw [ht]), ?_⟩
    show i ∈ ((View.whole main_v84_1).slice (win3_9.rect t)).set
    rw [View.set_slice_whole, Rect.mem_set_unit]
    intro a
    match a with
    | ⟨0, _⟩ => show win3_9.index t 0 * 128 ≤ (i 0).val ∧ (i 0).val < win3_9.index t 0 * 128 + 128; rw [(idx_fixed t).2.2.2.2.2.2]; omega
    | ⟨1, _⟩ => show win3_9.index t 1 * 64 ≤ (i 1).val ∧ (i 1).val < win3_9.index t 1 * 64 + 64; rw [(idx_fixed t).2.2.2.2.2.2]; omega

end Cert.KernelIdeal.NVal3

end
-- ==== Proof.KH4.lean ====
import proofs.«404768_j10737418240832_1_alg».proof.Proof.KHLib
import proofs.«404768_j10737418240832_1_alg».proof.Proof.Gen.KernelIdeal.Frame
import Idealize.ShloMosaic.Lib.Tactic

noncomputable section

namespace Cert.KernelIdeal.HVal4

open Cert.KernelIdeal Cert.KernelIdeal.Gen Cert.KernelIdeal.HLib Cert.Spec Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b)) (c : Dev nD)

/-- The affine map of the aggregate, the weights and the bias as the region finds them. -/
abbrev H : Tab 100000 64 := lin (tab (V c main_v104)) (tab (V c main_v106)) (fun j => V c main_v109 (ix2 0 j))

/-- Block `t` of the aggregate and of the map starts at row `5000 t`. -/
theorem idx_facts : ∀ t : Fin cfg4.N, win4_0.index t (0 : Fin 2) = t.val ∧ win4_0.index t (1 : Fin 2) = 0
    ∧ win4_3.index t (0 : Fin 2) = t.val ∧ win4_3.index t (1 : Fin 2) = 0 :=
  (by decide +kernel : ∀ t : Fin grid4.N, _)

/-- The weights, the bias and each of the two sums are one block. -/
theorem offs : ∀ (t : Fin cfg4.N) (a : Fin 2), win4_1.index t a * main_v106.ty.shape.size a = 0
    ∧ win4_2.index t a * main_v109.ty.shape.size a = 0 ∧ win4_4.index t a * main_v110_1.ty.shape.size a = 0
    ∧ win4_5.index t a * main_v110_2.ty.shape.size a = 0 :=
  (by decide +kernel : ∀ (t : Fin grid4.N) (a : Fin 2), _)

/-- What the three outputs hold after each point, from the point's three input blocks, and what those blocks are. -/
theorem fold : Fold N_4 (outsAt4 V c) (iblk4 V c 0) (iblk4 V c 1) (iblk4 V c 2)
    (tab (V c main_v104)) (tab (V c main_v106)) (fun j => V c main_v109 (ix2 0 j)) where
  hA t h0 := by
    show _ = (k4_pay3 (F := Ideal) _ _ _, k4_pay4 (F := Ideal) _ _ _ (k4_pay1 (F := Ideal)), k4_pay5 (F := Ideal) _ _ _ (k4_pay2 (F := Ideal)))
    rw [outsAt4_A V c t h0]
    unfold out4_A_3 out4_A_4 out4_A_5
    rw [View.read_writes_eq_canon _ _ _ fun _ => cover4_A_3 .., View.read_writes_eq_canon _ _ _ fun _ => cover4_A_4 ..,
      View.read_writes_eq_canon _ _ _ fun _ => cover4_A_5 ..]
    unfold kernelRun4_A
    dsimp only
    sl_unfold_words
    simp only [View.canon_unit_zero (S := S5000x64) hz, View.canon_cons_unit_zero (S := S1x64) hz, View.readCov_unit_zero (S := S1x64) _ hz, View.readAt_eq_ld, (hs4_0 t).read_unread, (hs4_1 t).read_unread, (hs4_2 t).read_unread, View.ld_unit_zero (S := S5000x64) hz, View.ld_unit_zero (S := S64x64) hz, View.ld_unit_zero (S := S1x64) hz]
  hB t h0 := by
    show _ = (k4_pay3 (F := Ideal) _ _ _, k4_pay4 (F := Ideal) _ _ _ _, k4_pay5 (F := Ideal) _ _ _ _)
    rw [outsAt4_B V c t h0]
    unfold out4_B_3 out4_B_4 out4_B_5
    rw [View.read_writes_eq_canon _ _ _ fun _ => cover4_B_3 .., View.read_writes_eq_canon _ _ _ fun _ => cover4_B_4 ..,
      View.read_writes_eq_canon _ _ _ fun _ => cover4_B_5 ..]
    unfold kernelRun4_B
    dsimp only
    sl_unfold_words
    simp only [View.canon_unit_zero (S := S5000x64) hz, View.canon_cons_unit_zero (S := S1x64) hz, View.readAt_eq_ld, (hs4_0 t).read_unread, (hs4_1 t).read_unread, (hs4_2 t).read_unread, (hs4_4 t).read_unread, (hs4_5 t).read_unread, View.ld_unit_zero (S := S5000x64) hz, View.ld_unit_zero (S := S64x64) hz, View.ld_unit_zero (S := S1x64) hz]
  hx t r k := by
    obtain ⟨e0, e1, -⟩ := idx_facts t
    unfold iblk4
    rw [View.read_apply]
    exact congrArg (V c main_v104) (Shape.idx_ext₂
      (by show win4_0.index t (0 : Fin 2) * 5000 + 1 * r.val = 5000 * t.val + r.val; rw [e0]; omega)
      (by show win4_0.index t (1 : Fin 2) * 64 + 1 * k.val = k.val; rw [e1]; omega))
  hw t k j := congrFun (Memref.read_access_unit_zero (Elt Ideal) main_v106 (funext fun a => (offs t a).1) _ _) _
  hb t j := congrFun (Memref.read_access_unit_zero (Elt Ideal) main_v109 (funext fun a => (offs t a).2.1) _ _) _

/-- The first output array ends holding the map: block `t` holds rows `5000 t … 5000 t + 4999`, and row `r` lies in block `r / 5000`. -/
theorem h_out : (dat4 V c).arrAt 3 cfg4.N = mk (H V c) := by
  refine (dat4 V c).arrAt_eq_of_cover 3 _ (fun t _ => ?_) fun i => ?_
  · obtain ⟨-, -, e0, e1⟩ := idx_facts t
    show (cfg4.win 3).cut _ ((dat4 V c).after 3 t) = _
    rw [after4_3]
    funext y
    refine (fold V c).block_out t y (((cfg4.win 3).blk t).view.emb y) ?_ ?_
    · show win4_3.index t (0 : Fin 2) * 5000 + 1 * (y 0).val = 5000 * t.val + (y 0).val
      rw [e0]; omega
    · show win4_3.index t (1 : Fin 2) * 64 + 1 * (y 1).val = (y 1).val
      rw [e1]; omega
  · have h0 : (i 0).val < 100000 := (i 0).isLt
    have h1 : (i 1).val < 64 := (i 1).isLt
    obtain ⟨t, ht⟩ : ∃ t : Fin cfg4.N, t.val = (i 0).val / 5000 :=
      ⟨⟨_, by rw [show cfg4.N = 20 from N_4]; omega⟩, rfl⟩
    obtain ⟨-, -, e0, e1⟩ := idx_facts t
    refine ⟨t, flush4_3 t, ?_⟩
    show i ∈ ((View.whole main_v110_0).slice (win4_3.rect t)).set
    rw [View.set_slice_whole, Rect.mem_set_unit]
    intro a
    match a with
    | ⟨0, _⟩ =>
      show win4_3.index t (0 : Fin 2) * 5000 ≤ (i 0).val ∧ (i 0).val < win4_3.index t (0 : Fin 2) * 5000 + 5000
      rw [e0]; omega
    | ⟨1, _⟩ =>
      show win4_3.index t (1 : Fin 2) * 64 ≤ (i 1).val ∧ (i 1).val < win4_3.index t (1 : Fin 2) * 64 + 64
      rw [e1]; omega

theorem lastLt : 19 < cfg4.N := by decide
/-- The last point. -/
abbrev last : Fin cfg4.N := ⟨19, lastLt⟩

theorem off4 : (fun a => win4_4.index last a * main_v110_1.ty.shape.size a) = fun _ => 0 := funext fun a => (offs last a).2.2.1
theorem off5 : (fun a => win4_5.index last a * main_v110_2.ty.shape.size a) = fun _ => 0 := funext fun a => (offs last a).2.2.2

/-- The second output array ends holding the column sums of the map. -/
theorem sum_out : (dat4 V c).arrAt 4 cfg4.N = mk (fun (_ : Fin 1) j => colSum (H V c) j) := by
  refine ((dat4 V c).arrAt_eq_of_cover 4 _ (fun t hf => ?_) fun i => ⟨last, (flush4_4 _).mpr rfl, ?_⟩).trans ((fold V c).sum_last lastLt)
  · obtain rfl : t = last := Fin.ext (by show t.val = 19; have := (flush4_4 t).mp hf; have := lt_of_lt_of_eq t.isLt N_4; omega)
    show (cfg4.win 4).cut _ ((dat4 V c).after 4 _) = _
    rw [after4_4]
    exact (Memref.read_access_unit_zero (Elt Ideal) main_v110_1 off4 (fun a => by rw [congrFun off4 a]; simp) _).symm
  · show i ∈ ((View.whole main_v110_1).slice (win4_4.rect last)).set
    rw [View.set_slice_whole]
    exact View.mem_set_unit_zero off4 _ i

/-- The third output array ends holding the column sums of its squares. -/
theorem sumsq_out : (dat4 V c).arrAt 5 cfg4.N = mk (fun (_ : Fin 1) j => colSumSq (H V c) j) := by
  refine ((dat4 V c).arrAt_eq_of_cover 5 _ (fun t hf => ?_) fun i => ⟨last, (flush4_5 _).mpr rfl, ?_⟩).trans ((fold V c).sumsq_last lastLt)
  · obtain rfl : t = last := Fin.ext (by show t.val = 19; have := (flush4_5 t).mp hf; have := lt_of_lt_of_eq t.isLt N_4; omega)
    show (cfg4.win 5).cut _ ((dat4 V c).after 5 _) = _
    rw [after4_5]
    exact (Memref.read_access_unit_zero (Elt Ideal) main_v110_2 off5 (fun a => by rw [congrFun off5 a]; simp) _).symm
  · show i ∈ ((View.whole main_v110_2).slice (win4_5.rect last)).set
    rw [View.set_slice_whole]
    exact View.mem_set_unit_zero off5 _ i

end Cert.KernelIdeal.HVal4

end
-- ==== Proof.KN5.lean ====
import proofs.«404768_j10737418240832_1_alg».proof.Proof.KNLib
import proofs.«404768_j10737418240832_1_alg».proof.Proof.Gen.KernelIdeal.Frame
import Idealize.ShloMosaic.Lib.Tactic

noncomputable section

open Idealize.ShloMosaic Idealize.ShloMosaic.TcCoe

namespace Cert.KernelIdeal.NVal5

open Cert.KernelIdeal Cert.KernelIdeal.Gen Cert.Spec Idealize.ShloMosaic.ValueIdx

variable (V : (c : Dev nD) → (b : Ref sig .tc) → Buf (Elt Ideal) ((c : Thread nD τ).loc b)) (c : Dev nD)

abbrev hT : Tab 100000 64 := tab (V c main_v110_0)
abbrev muT : Fin 64 → EReal := fun j => V c main_v112 (ix2 0 j)
abbrev varT : Fin 64 → EReal := fun j => V c main_v116 (ix2 0 j)
abbrev gT : Fin 64 → EReal := fun j => V c main_v119 (ix2 0 j)
abbrev btT : Fin 64 → EReal := fun j => V c main_v122 (ix2 0 j)
abbrev w2T : Tab 64 64 := tab (V c main_v124)
abbrev b2T : Fin 64 → EReal := fun j => V c main_v127 (ix2 0 j)
abbrev batchT : Fin 100000 → BitVec 32 := fun e => V c main_v4 (ix2 e 0)
abbrev X : Tab 100000 64 := lin (bnrelu (hT V c) (muT V c) (varT V c) (gT V c) (btT V c)) (w2T V c) (b2T V c)

/-- The block of x computed at point `t`. -/
abbrev xB (t : Fin cfg5.N) : FVec Ideal S5000x64 .f32 :=
  k5_pay3 (iblk5 V c 0 t) (iblk5 V c 2 t) (iblk5 V c 1 t) (iblk5 V c 3 t) (iblk5 V c 4 t) (iblk5 V c 5 t) (iblk5 V c 6 t)

theorem outs_A (t : Fin cfg5.N) (h0 : t.val % 20 = 0) :
    outsAt5 V c t.val t.isLt = (xB V c t, k5_pay1 (xB V c t) (iblk5 V c 7 t) (k5_pay2 (F := Ideal))) := by
  rw [outsAt5_A V c t h0]
  unfold out5_A_8 out5_A_9
  rw [View.read_writes_eq_canon _ _ _ (fun y => cover5_A_8 ..), View.read_writes_eq_canon _ _ _ (fun y => cover5_A_9 ..)]
  unfold kernelRun5_A
  dsimp only
  sl_unfold_words
  simp only [NLib.canon0, NLib.readCov0, NLib.ld0, View.readAt_eq_ld, Memref.IsWhole.read_unread]

theorem outs_B (t : Fin cfg5.N) (h0 : ¬t.val % 20 = 0) :
    outsAt5 V c t.val t.isLt
      = (xB V c t, k5_pay1 (xB V c t) (iblk5 V c 7 t) (outsAt5 V c (t.val - 1) (Nat.lt_of_le_of_lt (Nat.sub_le _ _) t.isLt)).2) := by
  rw [outsAt5_B V c t h0]
  unfold out5_B_8 out5_B_9
  rw [View.read_writes_eq_canon _ _ _ (fun y => cover5_B_8 ..), View.read_writes_eq_canon _ _ _ (fun y => cover5_B_9 ..)]
  unfold kernelRun5_B
  dsimp only
  sl_unfold_words
  simp only [NLib.canon0, NLib.ld0, View.readAt_eq_ld, Memref.IsWhole.read_unread]

theorem idx_rows : ∀ t : Fin cfg5.N, win5_0.index t = ![t.val, 0] ∧ win5_7.index t = ![t.val, 0] ∧ win5_8.index t = ![t.val, 0] :=
  (by decide +kernel : ∀ t : Fin grid5.N, _)
theorem idx_fixed : ∀ t : Fin cfg5.N, (∀ a, win5_1.index t a = 0) ∧ (∀ a, win5_2.index t a = 0) ∧ (∀ a, win5_3.index t a = 0)
    ∧ (∀ a, win5_4.index t a = 0) ∧ (∀ a, win5_5.index t a = 0) ∧ (∀ a, win5_6.index t a = 0) ∧ ∀ a, win5_9.index t a = 0 :=
  (by decide +kernel : ∀ t : Fin grid5.N, _)

theorem hN : cfg5.N = 20 := N_5

abbrev row (t : Fin cfg5.N) (r : Fin 5000) : Fin 100000 := NLib.row hN t r

theorem hB_apply (t : Fin cfg5.N) (r : Fin 5000) (k : Fin 64) : iblk5 V c 0 t (ix2 r k) = hT V c (row t r) k := by
  refine congrArg (V c main_v110_0) (NLib.emb_eq win5_0 t _ _ fun a => ?_)
  rw [(idx_rows t).1]
  match a with
  | ⟨0, _⟩ => show t.val * 5000 + r.val = 5000 * t.val + r.val; omega
  | ⟨1, _⟩ => exact Nat.zero_add _

theorem batchB_apply (t : Fin cfg5.N) (r : Fin 5000) : iblk5 V c 7 t (ix2 r (0 : Fin 1)) = batchT V c (row t r) := by
  refine congrArg (V c main_v4) (NLib.emb_eq win5_7 t _ _ fun a => ?_)
  rw [(idx_rows t).2.1]
  match a with
  | ⟨0, _⟩ => show t.val * 5000 + r.val = 5000 * t.val + r.val; omega
  | ⟨1, _⟩ => rfl

theorem muB_eq (t : Fin cfg5.N) : iblk5 V c 1 t = V c main_v112 :=
  funext fun y => congrArg _ (NLib.emb_fixed win5_1 t (idx_fixed t).1 y y fun _ => rfl)
theorem varB_eq (t : Fin cfg5.N) : iblk5 V c 2 t = V c main_v116 :=
  funext fun y => congrArg _ (NLib.emb_fixed win5_2 t (idx_fixed t).2.1 y y fun _ => rfl)
theorem gB_eq (t : Fin cfg5.N) : iblk5 V c 3 t = V c main_v119 :=
  funext fun y => congrArg _ (NLib.emb_fixed win5_3 t (idx_fixed t).2.2.1 y y fun _ => rfl)
theorem btB_eq (t : Fin cfg5.N) : iblk5 V c 4 t = V c main_v122 :=
  funext fun y => congrArg _ (NLib.emb_fixed win5_4 t (idx_fixed t).2.2.2.1 y y fun _ => rfl)
theorem wB_eq (t : Fin cfg5.N) : iblk5 V c 5 t = V c main_v124 :=
  funext fun y => congrArg _ (NLib.emb_fixed win5_5 t (idx_fixed t).2.2.2.2.1 y y fun _ => rfl)
theorem b2B_eq (t : Fin cfg5.N) : iblk5 V c 6 t = V c main_v127 :=
  funext fun y => congrArg _ (NLib.emb_fixed win5_6 t (idx_fixed t).2.2.2.2.2.1 y y fun _ => rfl)

theorem xB_apply (t : Fin cfg5.N) (r : Fin 5000) (j : Fin 64) : xB V c t (ix2 r j) = X V c (row t r) j := by
  refine (NLib.pay3_apply (iblk5 V c 0 t) (iblk5 V c 2 t) (iblk5 V c 1 t) (iblk5 V c 3 t) (iblk5 V c 4 t) (iblk5 V c 5 t) (iblk5 V c 6 t) r j).trans ?_
  simp only [hB_apply V c, muB_eq V c, varB_eq V c, gB_eq V c, btB_eq V c, wB_eq V c, b2B_eq V c]
  rfl

/-- Row `i` of the 100000 is row `i % 5000` of block `i / 5000`. -/
theorem x_out : (dat5 V c).arrAt 8 cfg5.N = mk (X V c) := by
  refine (dat5 V c).arrAt_eq_of_cover 8 (mk (X V c)) (fun t _ => ?_) fun i => ?_
  · show (cfg5.win 8).cut (grid5.coords t) ((dat5 V c).after 8 t) = _
    rw [after5_8, NLib.outs_fst (outsAt5 V c) (xB V c) (iblk5 V c 7) (outs_A V c) (outs_B V c) t]
    funext y
    obtain ⟨r, j, rfl⟩ : ∃ (r : Fin 5000) (j : Fin 64), y = ix2 r j := ⟨y 0, y 1, eq_ix2 y⟩
    refine (xB_apply V c t r j).trans (congrArg (mk (X V c)) (NLib.emb_eq win5_8 t (ix2 r j) (ix2 (row t r) j) fun a => ?_)).symm
    rw [(idx_rows t).2.2]
    match a with
    | ⟨0, _⟩ => show t.val * 5000 + r.val = 5000 * t.val + r.val; omega
    | ⟨1, _⟩ => exact Nat.zero_add _
  · have hi0 : (i 0).val < 100000 := (i 0).isLt
    have hi1 : (i 1).val < 64 := (i 1).isLt
    obtain ⟨t, ht⟩ : ∃ t : Fin cfg5.N, t.val = (i 0).val / 5000 := ⟨⟨(i 0).val / 5000, by rw [hN]; omega⟩, rfl⟩
    refine ⟨t, flush5_8 t, ?_⟩
    show i ∈ ((View.whole main_v128_0).slice (win5_8.rect t)).set
    rw [View.set_slice_whole, Rect.mem_set_unit, (idx_rows t).2.2]
    intro a
    match a with
    | ⟨0, _⟩ => show t.val * 5000 ≤ (i 0).val ∧ (i 0).val < t.val * 5000 + 5000; omega
    | ⟨1, _⟩ => show 0 * 64 ≤ (i 1).val ∧ (i 1).val < 0 * 64 + 64; omega

theorem pool_out : (dat5 V c).arrAt 9 cfg5.N = mk (pool (batchT V c) (X V c)) := by
  refine (dat5 V c).arrAt_eq_of_cover 9 _ (fun t hf => ?_) fun i => ?_
  · show (cfg5.win 9).cut (grid5.coords t) ((dat5 V c).after 9 t) = _
    rw [after5_9, NLib.acc_last hN (outsAt5 V c) (xB V c) (iblk5 V c 7) (outs_A V c) (outs_B V c) (X V c) (batchT V c)
      (xB_apply V c) (batchB_apply V c) t ((flush5_9 t).mp hf)]
    generalize mk (pool (batchT V c) (X V c)) = P
    have key : ∀ y : S128x64.Idx, P y = P (((cfg5.win 9).blk t).view.emb y) := fun y =>
      congrArg P (funext fun a => Fin.ext (by
        match a with
        | ⟨0, _⟩ => show (y 0).val = win5_9.index t 0 * 128 + 1 * (y 0).val; rw [(idx_fixed t).2.2.2.2.2.2]; omega
        | ⟨1, _⟩ => show (y 1).val = win5_9.index t 1 * 64 + 1 * (y 1).val; rw [(idx_fixed t).2.2.2.2.2.2]; omega))
    exact funext key
  · have hi0 : (i 0).val < 128 := (i 0).isLt
    have hi1 : (i 1).val < 64 := (i 1).isLt
    obtain ⟨t, ht⟩ : ∃ t : Fin cfg5.N, t.val = 19 := ⟨⟨19, by rw [hN]; omega⟩, rfl⟩
    refine ⟨t, (flush5_9 t).mpr (by rw [ht]), ?_⟩
    show i ∈ ((View.whole main_v128_1).slice (win5_9.rect t)).set
    rw [View.set_slice_whole, Rect.mem_set_unit]
    intro a
    match a with
    | ⟨0, _⟩ => show win5_9.index t 0 * 128 ≤ (i 0).val ∧ (i 0).val < win5_9.index t 0 * 128 + 128; rw [(idx_fixed t).2.2.2.2.2.2]; omega
    | ⟨1, _⟩ => show win5_9.index t 1 * 64 ≤ (i 1).val ∧ (i 1).val < win5_9.index t 1 * 64 + 64; rw [(idx_fixed t).2.2.2.2.2.2]; omega

end Cert.KernelIdeal.NVal5

end
-- ==== Proof.KFold.lean ====
import proofs.«404768_j10737418240832_1_alg».proof.Proof.Gen.KernelIdeal.Frame
import proofs.«404768_j10737418240832_1_alg».proof.Proof.Spec
import proofs.«404768_j10737418240832_1_alg».proof.Proof.KTerm
import proofs.«404768_j10737418240832_1_alg».proof.Proof.KHost
import proofs.«404768_j10737418240832_1_alg».proof.Proof.KLayer
import proofs.«404768_j10737418240832_1_alg».proof.Proof.KH0
import proofs.«404768_j10737418240832_1_alg».proof.Proof.KN1
import proofs.«404768_j10737418240832_1_alg».proof.Proof.KH2
import proofs.«404768_j10737418240832_1_alg».proof.Proof.KN3
import proofs.«404768_j10737418240832_1_alg».proof.Proof.KH4
import proofs.«404768_j10737418240832_1_alg».proof.Proof.KN5
import Idealize.ShloMosaic.Lib.Pipeline.Value

set_option maxRecDepth 16384

noncomputable section

namespace Cert.KernelIdeal.KOut

open Idealize.ShloMosaic Idealize.ShloMosaic.TcCoe Idealize.ShloMosaic.ValueIdx
open Cert.KernelIdeal Cert.KernelIdeal.Gen Cert.Spec
open Cert.KernelIdeal.KTerm Cert.KernelIdeal.KHost Cert.KernelIdeal.KLayer

variable (m : (ℓ : Loc nD τ sig) → Buf (Elt Ideal) ℓ) (ρ : Dev nD → PrngReg) (c : Dev nD)

abbrev aX : Mat 100000 64 := m ((c : Thread nD τ).loc main_arg0)
abbrev aE : (⟨2, ![2, 1600000]⟩ : Shape).Idx → BitVec 32 := m ((c : Thread nD τ).loc main_arg1)
abbrev aB : (⟨1, ![100000]⟩ : Shape).Idx → BitVec 32 := m ((c : Thread nD τ).loc main_arg2)
abbrev aW1 : T3 3 64 64 := m ((c : Thread nD τ).loc main_arg3)
abbrev ab1 : Mat 3 64 := m ((c : Thread nD τ).loc main_arg4)
abbrev ag : Mat 3 64 := m ((c : Thread nD τ).loc main_arg5)
abbrev abt : Mat 3 64 := m ((c : Thread nD τ).loc main_arg6)
abbrev aW2 : T3 3 64 64 := m ((c : Thread nD τ).loc main_arg7)
abbrev ab2 : Mat 3 64 := m ((c : Thread nD τ).loc main_arg8)
abbrev aWo : T3 3 64 10 := m ((c : Thread nD τ).loc main_arg9)
abbrev abo : Mat 3 10 := m ((c : Thread nD τ).loc main_arg10)

abbrev P (l : Fin 3) : Params :=
  paramsOf l (aW1 m c) (ab1 m c) (ag m c) (abt m c) (aW2 m c) (ab2 m c) (aWo m c) (abo m c)
abbrev src : Fin 1600000 → BitVec 32 := srcOf (aE m c)
abbrev dst : Fin 1600000 → BitVec 32 := dstOf (aE m c)
abbrev bat : Fin 100000 → BitVec 32 := batchOf (aB m c)
abbrev x0 : Tab 100000 64 := tab (aX m c)
abbrev x1 : Tab 100000 64 := nextX varK (P m c 0) (src m c) (dst m c) (x0 m c)
abbrev x2 : Tab 100000 64 := nextX varK (P m c 1) (src m c) (dst m c) (x1 m c)
abbrev x3 : Tab 100000 64 := nextX varK (P m c 2) (src m c) (dst m c) (x2 m c)
abbrev s0 : Tab 128 10 := fun _ _ => 0
abbrev s1 : Tab 128 10 := nextScore (P m c 0) (bat m c) (x1 m c) s0
abbrev s2 : Tab 128 10 := nextScore (P m c 1) (bat m c) (x2 m c) (s1 m c)
abbrev s3 : Tab 128 10 := nextScore (P m c 2) (bat m c) (x3 m c) (s2 m c)

theorem scoreOf_eq : scoreOf varK (aX m c) (aE m c) (aB m c) (aW1 m c) (ab1 m c) (ag m c) (abt m c) (aW2 m c) (ab2 m c) (aWo m c) (abo m c)
    = mk (s3 m c) := rfl

theorem lin_congr {n p q : Nat} {a a' : Tab n p} {W W' : Tab p q} {b b' : Fin q → EReal}
    (ha : a = a') (hW : W = W') (hb : b = b') : lin a W b = lin a' W' b' := by rw [ha, hW, hb]
theorem bnrelu_congr {n : Nat} {H H' : Tab n 64} {mu mu' var var' g g' bt bt' : Fin 64 → EReal}
    (hH : H = H') (hmu : mu = mu') (hvar : var = var') (hg : g = g') (hbt : bt = bt') :
    bnrelu H mu var g bt = bnrelu H' mu' var' g' bt' := by rw [hH, hmu, hvar, hg, hbt]

theorem src_fun : (fun e => rowT (F := Ideal) ![0, 0] slices_S2x1600000_S1x1600000_0_0 (aE m c) (ix1 e)) = src m c :=
  funext fun e => rowT_apply 0 _ rfl _ _ e
theorem dst_fun : (fun e => rowT (F := Ideal) ![1, 0] slices_S2x1600000_S1x1600000_1_0 (aE m c) (ix1 e)) = dst m c :=
  funext fun e => rowT_apply 1 _ rfl _ _ e
theorem bat_fun : (fun e => batchColT (F := Ideal) (aB m c) (ix2 e 0)) = bat m c :=
  funext fun e => batchColT_apply _ e

abbrev Untouched (r : Ref sig .tc) : Prop :=
  r ∉ writes0 ∧ (∀ w, Pipeline.arrRef spec0 w ≠ r) ∧ r ∉ writes1 ∧ (∀ w, Pipeline.arrRef spec1 w ≠ r) ∧
  r ∉ writes2 ∧ (∀ w, Pipeline.arrRef spec2 w ≠ r) ∧ r ∉ writes3 ∧ (∀ w, Pipeline.arrRef spec3 w ≠ r) ∧
  r ∉ writes4 ∧ (∀ w, Pipeline.arrRef spec4 w ≠ r) ∧ r ∉ writes5 ∧ (∀ w, Pipeline.arrRef spec5 w ≠ r) ∧ r ∉ writes6

section Args
variable {r : Ref sig .tc}
theorem arg0 (h : Untouched r) : W0 m ρ c (Proc.devRef .tc r) = m ((c : Thread nD τ).loc r) := rfl
theorem arg1 (h : Untouched r) : W1 m ρ c (Proc.devRef .tc r) = m ((c : Thread nD τ).loc r) := (keep0 _ h.1).trans (arg0 m ρ c h)
theorem arg2 (h : Untouched r) : W2 m ρ c (Proc.devRef .tc r) = m ((c : Thread nD τ).loc r) := (W2_of_ne m ρ c r h.2.1).trans (arg1 m ρ c h)
theorem arg3 (h : Untouched r) : W3 m ρ c (Proc.devRef .tc r) = m ((c : Thread nD τ).loc r) := (keep1 _ h.2.2.1).trans (arg2 m ρ c h)
theorem arg4 (h : Untouched r) : W4 m ρ c (Proc.devRef .tc r) = m ((c : Thread nD τ).loc r) := (W4_of_ne m ρ c r h.2.2.2.1).trans (arg3 m ρ c h)
theorem arg5 (h : Untouched r) : W5 m ρ c (Proc.devRef .tc r) = m ((c : Thread nD τ).loc r) := (keep2 _ h.2.2.2.2.1).trans (arg4 m ρ c h)
theorem arg6 (h : Untouched r) : W6 m ρ c (Proc.devRef .tc r) = m ((c : Thread nD τ).loc r) := (W6_of_ne m ρ c r h.2.2.2.2.2.1).trans (arg5 m ρ c h)
theorem arg7 (h : Untouched r) : W7 m ρ c (Proc.devRef .tc r) = m ((c : Thread nD τ).loc r) := (keep3 _ h.2.2.2.2.2.2.1).trans (arg6 m ρ c h)
theorem arg8 (h : Untouched r) : W8 m ρ c (Proc.devRef .tc r) = m ((c : Thread nD τ).loc r) := (W8_of_ne m ρ c r h.2.2.2.2.2.2.2.1).trans (arg7 m ρ c h)
theorem arg9 (h : Untouched r) : W9 m ρ c (Proc.devRef .tc r) = m ((c : Thread nD τ).loc r) := (keep4 _ h.2.2.2.2.2.2.2.2.1).trans (arg8 m ρ c h)
theorem arg10 (h : Untouched r) : W10 m ρ c (Proc.devRef .tc r) = m ((c : Thread nD τ).loc r) := (W10_of_ne m ρ c r h.2.2.2.2.2.2.2.2.2.1).trans (arg9 m ρ c h)
theorem arg11 (h : Untouched r) : W11 m ρ c (Proc.devRef .tc r) = m ((c : Thread nD τ).loc r) := (keep5 _ h.2.2.2.2.2.2.2.2.2.2.1).trans (arg10 m ρ c h)
theorem arg12 (h : Untouched r) : W12 m ρ c (Proc.devRef .tc r) = m ((c : Thread nD τ).loc r) := (W12_of_ne m ρ c r h.2.2.2.2.2.2.2.2.2.2.2.1).trans (arg11 m ρ c h)
end Args

theorem W4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin cfg1.N).trans (A_eq1 (V3 m ρ) c w))
theorem W8_in (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin cfg3.N).trans (A_eq3 (V7 m ρ) c w))

theorem W1_agg : W1 m ρ c (Proc.devRef .tc main_v16) = mk (agg (x0 m c) (src m c) (dst m c)) := by
  rw [show W1 m ρ c (Proc.devRef .tc main_v16) = aggT (F := Ideal) (aX m c) (rowT (F := Ideal) ![0, 0] slices_S2x1600000_S1x1600000_0_0 (aE m c)) (rowT (F := Ideal) ![1, 0] slices_S2x1600000_S1x1600000_1_0 (aE m c)) from h0_v16 (W0 m ρ c), aggT_eq, src_fun, dst_fun]

theorem W1_w1 : tab (W1 m ρ c (Proc.devRef .tc main_v18)) = (P m c 0).W1 := by
  rw [show W1 m ρ c (Proc.devRef .tc main_v18) = slabMatT (F := Ideal) ![0, 0, 0] slices_S3x64x64_S1x64x64_0_0_0 (aW1 m c) from
        (h0_v18 (W0 m ρ c)).trans (by rw [arg0 m ρ c (r := main_arg3) (by decide)])]
  exact slabMatT_eq 0 _ rfl _ _
theorem W1_b1 : (fun j => W1 m ρ c (Proc.devRef .tc main_v21) (ix2 0 j)) = (P m c 0).b1 := by
  rw [show W1 m ρ c (Proc.devRef .tc main_v21) = slabRowT (F := Ideal) ![0, 0] slices_S3x64_S1x64_0_0 (ab1 m c) from
        (h0_v21 (W0 m ρ c)).trans (by rw [arg0 m ρ c (r := main_arg4) (by decide)])]
  exact funext fun j => slabRowT_apply 0 _ rfl _ _ j

theorem H0_eq : HVal0.H (V1 m ρ) c = hid (P m c 0) (src m c) (dst m c) (x0 m c) :=
  lin_congr ((congrArg tab (W1_agg m ρ c)).trans (tab_mk _)) (W1_w1 m ρ c) (W1_b1 m ρ c)
theorem W2_h : W2 m ρ c (Proc.devRef .tc main_v22_0) = mk (hid (P m c 0) (src m c) (dst m c) (x0 m c)) :=
  (W2_arr m ρ c 3).trans ((HVal0.h_out (V1 m ρ) c).trans (congrArg mk (H0_eq m ρ c)))
theorem W2_s : W2 m ρ c (Proc.devRef .tc main_v22_1) = mk (fun (_ : Fin 1) j => colSum (hid (P m c 0) (src m c) (dst m c) (x0 m c)) j) :=
  (W2_arr m ρ c 4).trans ((HVal0.sum_out (V1 m ρ) c).trans (by rw [H0_eq]))
theorem W2_ss : W2 m ρ c (Proc.devRef .tc main_v22_2) = mk (fun (_ : Fin 1) j => colSumSq (hid (P m c 0) (src m c) (dst m c) (x0 m c)) j) :=
  (W2_arr m ρ c 5).trans ((HVal0.sumsq_out (V1 m ρ) c).trans (by rw [H0_eq]))

theorem W3_h : tab (W3 m ρ c (Proc.devRef .tc main_v22_0)) = hid (P m c 0) (src m c) (dst m c) (x0 m c) :=
  (congrArg tab ((keep1 _ (by decide)).trans (W2_h m ρ c))).trans (tab_mk _)
theorem W3_mu : (fun j => W3 m ρ c (Proc.devRef .tc main_v24) (ix2 0 j)) = mean (hid (P m c 0) (src m c) (dst m c) (x0 m c)) :=
  funext fun j => (congrFun (h1_v24 (W2 m ρ c)) (ix2 0 j)).trans (mean_of _ _ (W2_s m ρ c) j)
theorem W3_var : (fun j => W3 m ρ c (Proc.devRef .tc main_v28) (ix2 0 j)) = varK (hid (P m c 0) (src m c) (dst m c) (x0 m c)) :=
  funext fun j => (congrFun (h1_v28 (W2 m ρ c)) (ix2 0 j)).trans (var_of _ _ _ (W2_s m ρ c) (W2_ss m ρ c) j)
theorem W3_g : (fun j => W3 m ρ c (Proc.devRef .tc main_v31) (ix2 0 j)) = (P m c 0).g := by
  rw [show W3 m ρ c (Proc.devRef .tc main_v31) = slabRowT (F := Ideal) ![0, 0] slices_S3x64_S1x64_0_0 (ag m c) from
        (h1_v31 (W2 m ρ c)).trans (by rw [arg2 m ρ c (r := main_arg5) (by decide)])]
  exact funext fun j => slabRowT_apply 0 _ rfl _ _ j
theorem W3_bt : (fun j => W3 m ρ c (Proc.devRef .tc main_v34) (ix2 0 j)) = (P m c 0).bt := by
  rw [show W3 m ρ c (Proc.devRef .tc main_v34) = slabRowT (F := Ideal) ![0, 0] slices_S3x64_S1x64_0_0 (abt m c) from
        (h1_v34 (W2 m ρ c)).trans (by rw [arg2 m ρ c (r := main_arg6) (by decide)])]
  exact funext fun j => slabRowT_apply 0 _ rfl _ _ j
theorem W3_w2 : tab (W3 m ρ c (Proc.devRef .tc main_v36)) = (P m c 0).W2 := by
  rw [show W3 m ρ c (Proc.devRef .tc main_v36) = slabMatT (F := Ideal) ![0, 0, 0] slices_S3x64x64_S1x64x64_0_0_0 (aW2 m c) from
        (h1_v36 (W2 m ρ c)).trans (by rw [arg2 m ρ c (r := main_arg7) (by decide)])]
  exact slabMatT_eq 0 _ rfl _ _
theorem W3_b2 : (fun j => W3 m ρ c (Proc.devRef .tc main_v39) (ix2 0 j)) = (P m c 0).b2 := by
  rw [show W3 m ρ c (Proc.devRef .tc main_v39) = slabRowT (F := Ideal) ![0, 0] slices_S3x64_S1x64_0_0 (ab2 m c) from
        (h1_v39 (W2 m ρ c)).trans (by rw [arg2 m ρ c (r := main_arg8) (by decide)])]
  exact funext fun j => slabRowT_apply 0 _ rfl _ _ j
theorem W3_v4 : W3 m ρ c (Proc.devRef .tc main_v4) = batchColT (F := Ideal) (aB m c) :=
  ((keep1 _ (by decide)).trans ((W2_of_ne m ρ c main_v4 (by decide)).trans (h0_v4 (W0 m ρ c))))
theorem W3_bat : (fun e => W3 m ρ c (Proc.devRef .tc main_v4) (ix2 e 0)) = bat m c := by
  rw [W3_v4]; exact bat_fun m c

theorem X1_eq : NVal1.X (V3 m ρ) c = nextX varK (P m c 0) (src m c) (dst m c) (x0 m c) :=
  lin_congr (bnrelu_congr (W3_h m ρ c) (W3_mu m ρ c) (W3_var m ρ c) (W3_g m ρ c) (W3_bt m ρ c))
    (W3_w2 m ρ c) (W3_b2 m ρ c)
theorem W4_x : W4 m ρ c (Proc.devRef .tc main_v40_0) = mk (x1 m c) :=
  (W4_arr m ρ c 8).trans ((NVal1.x_out (V3 m ρ) c).trans (congrArg mk (X1_eq m ρ c)))
theorem W4_p : W4 m ρ c (Proc.devRef .tc main_v40_1) = mk (pool (bat m c) (x1 m c)) :=
  (W4_arr m ρ c 9).trans ((NVal1.pool_out (V3 m ρ) c).trans
    (by rw [X1_eq, show NVal1.batchT (V3 m ρ) c = bat m c from W3_bat m ρ c]))
theorem W4_sc : W4 m ρ c (Proc.devRef .tc main_v5) = mk s0 :=
  ((W4_of_ne m ρ c main_v5 (by decide)).trans ((keep1 _ (by decide)).trans ((W2_of_ne m ρ c main_v5 (by decide)).trans ((h0_v5 (W0 m ρ c)).trans zeroScoreT_eq))))

theorem W5_score : W5 m ρ c (Proc.devRef .tc main_v49) = mk (s1 m c) := by
  refine (h2_v49 (W4 m ρ c)).trans ?_
  rw [W4_p, arg4 m ρ c (r := main_arg9) (by decide), arg4 m ρ c (r := main_arg10) (by decide), W4_sc]
  exact score_of _ _ _ _ (P m c 0) (bat m c) (x1 m c) rfl (paramsOf_Wo 0 _ _ _ _ _ _ _ _ _) (paramsOf_bo 0 _ _ _ _ _ _ _ _ _)

theorem W4_v1 : W4 m ρ c (Proc.devRef .tc main_v1) = rowT (F := Ideal) ![0, 0] slices_S2x1600000_S1x1600000_0_0 (aE m c) :=
  ((W4_of_ne m ρ c main_v1 (by decide)).trans ((keep1 _ (by decide)).trans ((W2_of_ne m ρ c main_v1 (by decide)).trans (h0_v1 (W0 m ρ c)))))
theorem W4_v3 : W4 m ρ c (Proc.devRef .tc main_v3) = rowT (F := Ideal) ![1, 0] slices_S2x1600000_S1x1600000_1_0 (aE m c) :=
  ((W4_of_ne m ρ c main_v3 (by decide)).trans ((keep1 _ (by decide)).trans ((W2_of_ne m ρ c main_v3 (by decide)).trans (h0_v3 (W0 m ρ c)))))
theorem W5_agg : W5 m ρ c (Proc.devRef .tc main_v60) = mk (agg (x1 m c) (src m c) (dst m c)) := by
  rw [show W5 m ρ c (Proc.devRef .tc main_v60) = aggT (F := Ideal) (mk (x1 m c)) (rowT (F := Ideal) ![0, 0] slices_S2x1600000_S1x1600000_0_0 (aE m c)) (rowT (F := Ideal) ![1, 0] slices_S2x1600000_S1x1600000_1_0 (aE m c)) from
        (h2_v60 (W4 m ρ c)).trans (by rw [W4_x, W4_v1, W4_v3]), aggT_eq, tab_mk, src_fun, dst_fun]

theorem W5_w1 : tab (W5 m ρ c (Proc.devRef .tc main_v62)) = (P m c 1).W1 := by
  rw [show W5 m ρ c (Proc.devRef .tc main_v62) = slabMatT (F := Ideal) ![1, 0, 0] slices_S3x64x64_S1x64x64_1_0_0 (aW1 m c) from
        (h2_v62 (W4 m ρ c)).trans (by rw [arg4 m ρ c (r := main_arg3) (by decide)])]
  exact slabMatT_eq 1 _ rfl _ _
theorem W5_b1 : (fun j => W5 m ρ c (Proc.devRef .tc main_v65) (ix2 0 j)) = (P m c 1).b1 := by
  rw [show W5 m ρ c (Proc.devRef .tc main_v65) = slabRowT (F := Ideal) ![1, 0] slices_S3x64_S1x64_1_0 (ab1 m c) from
        (h2_v65 (W4 m ρ c)).trans (by rw [arg4 m ρ c (r := main_arg4) (by decide)])]
  exact funext fun j => slabRowT_apply 1 _ rfl _ _ j

theorem H2_eq : HVal2.H (V5 m ρ) c = hid (P m c 1) (src m c) (dst m c) (x1 m c) :=
  lin_congr ((congrArg tab (W5_agg m ρ c)).trans (tab_mk _)) (W5_w1 m ρ c) (W5_b1 m ρ c)
theorem W6_h : W6 m ρ c (Proc.devRef .tc main_v66_0) = mk (hid (P m c 1) (src m c) (dst m c) (x1 m c)) :=
  (W6_arr m ρ c 3).trans ((HVal2.h_out (V5 m ρ) c).trans (congrArg mk (H2_eq m ρ c)))
theorem W6_s : W6 m ρ c (Proc.devRef .tc main_v66_1) = mk (fun (_ : Fin 1) j => colSum (hid (P m c 1) (src m c) (dst m c) (x1 m c)) j) :=
  (W6_arr m ρ c 4).trans ((HVal2.sum_out (V5 m ρ) c).trans (by rw [H2_eq]))
theorem W6_ss : W6 m ρ c (Proc.devRef .tc main_v66_2) = mk (fun (_ : Fin 1) j => colSumSq (hid (P m c 1) (src m c) (dst m c) (x1 m c)) j) :=
  (W6_arr m ρ c 5).trans ((HVal2.sumsq_out (V5 m ρ) c).trans (by rw [H2_eq]))

theorem W7_h : tab (W7 m ρ c (Proc.devRef .tc main_v66_0)) = hid (P m c 1) (src m c) (dst m c) (x1 m c) :=
  (congrArg tab ((keep3 _ (by decide)).trans (W6_h m ρ c))).trans (tab_mk _)
theorem W7_mu : (fun j => W7 m ρ c (Proc.devRef .tc main_v68) (ix2 0 j)) = mean (hid (P m c 1) (src m c) (dst m c) (x1 m c)) :=
  funext fun j => (congrFun (h3_v68 (W6 m ρ c)) (ix2 0 j)).trans (mean_of _ _ (W6_s m ρ c) j)
theorem W7_var : (fun j => W7 m ρ c (Proc.devRef .tc main_v72) (ix2 0 j)) = varK (hid (P m c 1) (src m c) (dst m c) (x1 m c)) :=
  funext fun j => (congrFun (h3_v72 (W6 m ρ c)) (ix2 0 j)).trans (var_of _ _ _ (W6_s m ρ c) (W6_ss m ρ c) j)
theorem W7_g : (fun j => W7 m ρ c (Proc.devRef .tc main_v75) (ix2 0 j)) = (P m c 1).g := by
  rw [show W7 m ρ c (Proc.devRef .tc main_v75) = slabRowT (F := Ideal) ![1, 0] slices_S3x64_S1x64_1_0 (ag m c) from
        (h3_v75 (W6 m ρ c)).trans (by rw [arg6 m ρ c (r := main_arg5) (by decide)])]
  exact funext fun j => slabRowT_apply 1 _ rfl _ _ j
theorem W7_bt : (fun j => W7 m ρ c (Proc.devRef .tc main_v78) (ix2 0 j)) = (P m c 1).bt := by
  rw [show W7 m ρ c (Proc.devRef .tc main_v78) = slabRowT (F := Ideal) ![1, 0] slices_S3x64_S1x64_1_0 (abt m c) from
        (h3_v78 (W6 m ρ c)).trans (by rw [arg6 m ρ c (r := main_arg6) (by decide)])]
  exact funext fun j => slabRowT_apply 1 _ rfl _ _ j
theorem W7_w2 : tab (W7 m ρ c (Proc.devRef .tc main_v80)) = (P m c 1).W2 := by
  rw [show W7 m ρ c (Proc.devRef .tc main_v80) = slabMatT (F := Ideal) ![1, 0, 0] slices_S3x64x64_S1x64x64_1_0_0 (aW2 m c) from
        (h3_v80 (W6 m ρ c)).trans (by rw [arg6 m ρ c (r := main_arg7) (by decide)])]
  exact slabMatT_eq 1 _ rfl _ _
theorem W7_b2 : (fun j => W7 m ρ c (Proc.devRef .tc main_v83) (ix2 0 j)) = (P m c 1).b2 := by
  rw [show W7 m ρ c (Proc.devRef .tc main_v83) = slabRowT (F := Ideal) ![1, 0] slices_S3x64_S1x64_1_0 (ab2 m c) from
        (h3_v83 (W6 m ρ c)).trans (by rw [arg6 m ρ c (r := main_arg8) (by decide)])]
  exact funext fun j => slabRowT_apply 1 _ rfl _ _ j
theorem W7_v4 : W7 m ρ c (Proc.devRef .tc main_v4) = batchColT (F := Ideal) (aB m c) :=
  ((keep3 _ (by decide)).trans ((W6_of_ne m ρ c main_v4 (by decide)).trans ((keep2 _ (by decide)).trans ((W4_in m ρ c 7 rfl).trans (W3_v4 m ρ c)))))
theorem W7_bat : (fun e => W7 m ρ c (Proc.devRef .tc main_v4) (ix2 e 0)) = bat m c := by
  rw [W7_v4]; exact bat_fun m c

theorem X3_eq : NVal3.X (V7 m ρ) c = nextX varK (P m c 1) (src m c) (dst m c) (x1 m c) :=
  lin_congr (bnrelu_congr (W7_h m ρ c) (W7_mu m ρ c) (W7_var m ρ c) (W7_g m ρ c) (W7_bt m ρ c))
    (W7_w2 m ρ c) (W7_b2 m ρ c)
theorem W8_x : W8 m ρ c (Proc.devRef .tc main_v84_0) = mk (x2 m c) :=
  (W8_arr m ρ c 8).trans ((NVal3.x_out (V7 m ρ) c).trans (congrArg mk (X3_eq m ρ c)))
theorem W8_p : W8 m ρ c (Proc.devRef .tc main_v84_1) = mk (pool (bat m c) (x2 m c)) :=
  (W8_arr m ρ c 9).trans ((NVal3.pool_out (V7 m ρ) c).trans
    (by rw [X3_eq, show NVal3.batchT (V7 m ρ) c = bat m c from W7_bat m ρ c]))
theorem W8_sc : W8 m ρ c (Proc.devRef .tc main_v49) = mk (s1 m c) :=
  ((W8_of_ne m ρ c main_v49 (by decide)).trans ((keep3 _ (by decide)).trans ((W6_of_ne m ρ c main_v49 (by decide)).trans (W5_score m ρ c))))

theorem W9_score : W9 m ρ c (Proc.devRef .tc main_v93) = mk (s2 m c) := by
  refine (h4_v93 (W8 m ρ c)).trans ?_
  rw [W8_p, arg8 m ρ c (r := main_arg9) (by decide), arg8 m ρ c (r := main_arg10) (by decide), W8_sc]
  exact score_of _ _ _ _ (P m c 1) (bat m c) (x2 m c) rfl (paramsOf_Wo 1 _ _ _ _ _ _ _ _ _) (paramsOf_bo 1 _ _ _ _ _ _ _ _ _)

theorem W8_v1 : W8 m ρ c (Proc.devRef .tc main_v1) = rowT (F := Ideal) ![0, 0] slices_S2x1600000_S1x1600000_0_0 (aE m c) :=
  ((W8_of_ne m ρ c main_v1 (by decide)).trans ((keep3 _ (by decide)).trans ((W6_of_ne m ρ c main_v1 (by decide)).trans ((keep2 _ (by decide)).trans (W4_v1 m ρ c)))))
theorem W8_v3 : W8 m ρ c (Proc.devRef .tc main_v3) = rowT (F := Ideal) ![1, 0] slices_S2x1600000_S1x1600000_1_0 (aE m c) :=
  ((W8_of_ne m ρ c main_v3 (by decide)).trans ((keep3 _ (by decide)).trans ((W6_of_ne m ρ c main_v3 (by decide)).trans ((keep2 _ (by decide)).trans (W4_v3 m ρ c)))))
theorem W9_agg : W9 m ρ c (Proc.devRef .tc main_v104) = mk (agg (x2 m c) (src m c) (dst m c)) := by
  rw [show W9 m ρ c (Proc.devRef .tc main_v104) = aggT (F := Ideal) (mk (x2 m c)) (rowT (F := Ideal) ![0, 0] slices_S2x1600000_S1x1600000_0_0 (aE m c)) (rowT (F := Ideal) ![1, 0] slices_S2x1600000_S1x1600000_1_0 (aE m c)) from
        (h4_v104 (W8 m ρ c)).trans (by rw [W8_x, W8_v1, W8_v3]), aggT_eq, tab_mk, src_fun, dst_fun]

theorem W9_w1 : tab (W9 m ρ c (Proc.devRef .tc main_v106)) = (P m c 2).W1 := by
  rw [show W9 m ρ c (Proc.devRef .tc main_v106) = slabMatT (F := Ideal) ![2, 0, 0] slices_S3x64x64_S1x64x64_2_0_0 (aW1 m c) from
        (h4_v106 (W8 m ρ c)).trans (by rw [arg8 m ρ c (r := main_arg3) (by decide)])]
  exact slabMatT_eq 2 _ rfl _ _
theorem W9_b1 : (fun j => W9 m ρ c (Proc.devRef .tc main_v109) (ix2 0 j)) = (P m c 2).b1 := by
  rw [show W9 m ρ c (Proc.devRef .tc main_v109) = slabRowT (F := Ideal) ![2, 0] slices_S3x64_S1x64_2_0 (ab1 m c) from
        (h4_v109 (W8 m ρ c)).trans (by rw [arg8 m ρ c (r := main_arg4) (by decide)])]
  exact funext fun j => slabRowT_apply 2 _ rfl _ _ j

theorem H4_eq : HVal4.H (V9 m ρ) c = hid (P m c 2) (src m c) (dst m c) (x2 m c) :=
  lin_congr ((congrArg tab (W9_agg m ρ c)).trans (tab_mk _)) (W9_w1 m ρ c) (W9_b1 m ρ c)
theorem W10_h : W10 m ρ c (Proc.devRef .tc main_v110_0) = mk (hid (P m c 2) (src m c) (dst m c) (x2 m c)) :=
  (W10_arr m ρ c 3).trans ((HVal4.h_out (V9 m ρ) c).trans (congrArg mk (H4_eq m ρ c)))
theorem W10_s : W10 m ρ c (Proc.devRef .tc main_v110_1) = mk (fun (_ : Fin 1) j => colSum (hid (P m c 2) (src m c) (dst m c) (x2 m c)) j) :=
  (W10_arr m ρ c 4).trans ((HVal4.sum_out (V9 m ρ) c).trans (by rw [H4_eq]))
theorem W10_ss : W10 m ρ c (Proc.devRef .tc main_v110_2) = mk (fun (_ : Fin 1) j => colSumSq (hid (P m c 2) (src m c) (dst m c) (x2 m c)) j) :=
  (W10_arr m ρ c 5).trans ((HVal4.sumsq_out (V9 m ρ) c).trans (by rw [H4_eq]))

theorem W11_h : tab (W11 m ρ c (Proc.devRef .tc main_v110_0)) = hid (P m c 2) (src m c) (dst m c) (x2 m c) :=
  (congrArg tab ((keep5 _ (by decide)).trans (W10_h m ρ c))).trans (tab_mk _)
theorem W11_mu : (fun j => W11 m ρ c (Proc.devRef .tc main_v112) (ix2 0 j)) = mean (hid (P m c 2) (src m c) (dst m c) (x2 m c)) :=
  funext fun j => (congrFun (h5_v112 (W10 m ρ c)) (ix2 0 j)).trans (mean_of _ _ (W10_s m ρ c) j)
theorem W11_var : (fun j => W11 m ρ c (Proc.devRef .tc main_v116) (ix2 0 j)) = varK (hid (P m c 2) (src m c) (dst m c) (x2 m c)) :=
  funext fun j => (congrFun (h5_v116 (W10 m ρ c)) (ix2 0 j)).trans (var_of _ _ _ (W10_s m ρ c) (W10_ss m ρ c) j)
theorem W11_g : (fun j => W11 m ρ c (Proc.devRef .tc main_v119) (ix2 0 j)) = (P m c 2).g := by
  rw [show W11 m ρ c (Proc.devRef .tc main_v119) = slabRowT (F := Ideal) ![2, 0] slices_S3x64_S1x64_2_0 (ag m c) from
        (h5_v119 (W10 m ρ c)).trans (by rw [arg10 m ρ c (r := main_arg5) (by decide)])]
  exact funext fun j => slabRowT_apply 2 _ rfl _ _ j
theorem W11_bt : (fun j => W11 m ρ c (Proc.devRef .tc main_v122) (ix2 0 j)) = (P m c 2).bt := by
  rw [show W11 m ρ c (Proc.devRef .tc main_v122) = slabRowT (F := Ideal) ![2, 0] slices_S3x64_S1x64_2_0 (abt m c) from
        (h5_v122 (W10 m ρ c)).trans (by rw [arg10 m ρ c (r := main_arg6) (by decide)])]
  exact funext fun j => slabRowT_apply 2 _ rfl _ _ j
theorem W11_w2 : tab (W11 m ρ c (Proc.devRef .tc main_v124)) = (P m c 2).W2 := by
  rw [show W11 m ρ c (Proc.devRef .tc main_v124) = slabMatT (F := Ideal) ![2, 0, 0] slices_S3x64x64_S1x64x64_2_0_0 (aW2 m c) from
        (h5_v124 (W10 m ρ c)).trans (by rw [arg10 m ρ c (r := main_arg7) (by decide)])]
  exact slabMatT_eq 2 _ rfl _ _
theorem W11_b2 : (fun j => W11 m ρ c (Proc.devRef .tc main_v127) (ix2 0 j)) = (P m c 2).b2 := by
  rw [show W11 m ρ c (Proc.devRef .tc main_v127) = slabRowT (F := Ideal) ![2, 0] slices_S3x64_S1x64_2_0 (ab2 m c) from
        (h5_v127 (W10 m ρ c)).trans (by rw [arg10 m ρ c (r := main_arg8) (by decide)])]
  exact funext fun j => slabRowT_apply 2 _ rfl _ _ j
theorem W11_v4 : W11 m ρ c (Proc.devRef .tc main_v4) = batchColT (F := Ideal) (aB m c) :=
  ((keep5 _ (by decide)).trans ((W10_of_ne m ρ c main_v4 (by decide)).trans ((keep4 _ (by decide)).trans ((W8_in m ρ c 7 rfl).trans (W7_v4 m ρ c)))))
theorem W11_bat : (fun e => W11 m ρ c (Proc.devRef .tc main_v4) (ix2 e 0)) = bat m c := by
  rw [W11_v4]; exact bat_fun m c

theorem X5_eq : NVal5.X (V11 m ρ) c = nextX varK (P m c 2) (src m c) (dst m c) (x2 m c) :=
  lin_congr (bnrelu_congr (W11_h m ρ c) (W11_mu m ρ c) (W11_var m ρ c) (W11_g m ρ c) (W11_bt m ρ c))
    (W11_w2 m ρ c) (W11_b2 m ρ c)

theorem W12_p : W12 m ρ c (Proc.devRef .tc main_v128_1) = mk (pool (bat m c) (x3 m c)) :=
  (W12_arr m ρ c 9).trans ((NVal5.pool_out (V11 m ρ) c).trans
    (by rw [X5_eq, show NVal5.batchT (V11 m ρ) c = bat m c from W11_bat m ρ c]))
theorem W12_sc : W12 m ρ c (Proc.devRef .tc main_v93) = mk (s2 m c) :=
  ((W12_of_ne m ρ c main_v93 (by decide)).trans ((keep5 _ (by decide)).trans ((W10_of_ne m ρ c main_v93 (by decide)).trans (W9_score m ρ c))))

theorem W13_score : W13 m ρ c (Proc.devRef .tc main_v137) = mk (s3 m c) := by
  refine (h6_v137 (W12 m ρ c)).trans ?_
  rw [W12_p, arg12 m ρ c (r := main_arg9) (by decide), arg12 m ρ c (r := main_arg10) (by decide), W12_sc]
  exact score_of _ _ _ _ (P m c 2) (bat m c) (x3 m c) rfl (paramsOf_Wo 2 _ _ _ _ _ _ _ _ _) (paramsOf_bo 2 _ _ _ _ _ _ _ _ _)

-- Stretch by stretch and region by region the contents are the specification's tables; the last stretch leaves the score.
theorem kernel_value : W13 m ρ c (Proc.devRef .tc main_v137)
    = Cert.Spec.scoreOf Cert.Spec.varK (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) :=
  (W13_score m ρ c).trans (scoreOf_eq m c).symm

end Cert.KernelIdeal.KOut

end
-- ==== Proof.RTerm.lean ====
import proofs.«404768_j10737418240832_1_alg».proof.ReferenceIdeal
import proofs.«404768_j10737418240832_1_alg».proof.Proof.Gen.ReferenceIdeal
import proofs.«404768_j10737418240832_1_alg».proof.Proof.Spec

noncomputable section

namespace Cert.ReferenceIdeal.RTerm

open Idealize.ShloMosaic Idealize.SL.Sem

variable {F : FTy → Type} [FloatOps F] [Facts]
open Facts₀ Facts

abbrev A (F : FTy → Type) [FloatOps F] (S : Shape) : Type := (⟨S, .f32⟩ : BufTy).Contents (Elt F)
abbrev I (F : FTy → Type) [FloatOps F] (S : Shape) : Type := (⟨S, .i32⟩ : BufTy).Contents (Elt F)

def wrapT (v1 : I F S1600000) : I F S1600000 :=
  select (cmpi .slt v1 (broadcastInDim S1600000 ![] bcast_S_S1600000 (constantI S_ 32 0#32)))
    (addi v1 (broadcastInDim S1600000 ![] bcast_S_S1600000 (constantI S_ 32 100000#32))) v1

def aggT (x : A F S100000x64) (v1 v3 : I F S1600000) : A F S100000x64 :=
  addf x
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 v3)
      (Host.gather gather_S100000x64_S1600000x1_S1600000x64_1_0_n_n_0_1_164 x
        (broadcastInDim S1600000x1 ![0] bcast_S1600000_S1600000x1_0 (wrapT v1))))

def hT (x : A F S100000x64) (v1 v3 : I F S1600000) (W1 : A F S64x64) (b1 : A F S64) : A F S100000x64 :=
  addf (Host.dotGeneral dot_S100000x64_S64x64_S100000x64_1_0_0_1_n_n none (aggT x v1 v3) W1)
    (broadcastInDim S100000x64 ![0, 1] bcast_S1x64_S100000x64_0_1 (broadcastInDim S1x64 ![1] bcast_S64_S1x64_1 b1))

def meanT (h : A F S100000x64) : A F S64 :=
  Host.divf (Host.reduceAdd h (constant S_ .f32 0x00000000#32) reducesTo_S100000x64_S64_d0 h_S_)
    (broadcastInDim S64 ![] bcast_S_S64 (constant S_ .f32 0x47C35000#32))

def dofT : A F S_ :=
  subf (constant S_ .f32 0x47C35000#32) (sitofp .f32 (constantI S_ 32 0#32))

def devT (h : A F S100000x64) : A F S100000x64 :=
  subf h
    (broadcastInDim S100000x64 ![0, 1] bcast_S1x64_S100000x64_0_1
      (Host.divf
        (broadcastInDim S1x64 ![1] bcast_S64_S1x64_1
          (Host.reduceAdd h (constant S_ .f32 0x00000000#32) reducesTo_S100000x64_S64_d0 h_S_))
        (broadcastInDim S1x64 ![] bcast_S_S1x64 (constant S_ .f32 0x47C35000#32))))

def varT (h : A F S100000x64) : A F S64 :=
  select (broadcastInDim S64 ![] bcast_S_S64 (cmpf .ogt (dofT (F := F)) (constant S_ .f32 0x00000000#32)))
    (Host.divf
      (Host.reduceAdd (mulf (devT h) (devT h)) (constant S_ .f32 0x00000000#32) reducesTo_S100000x64_S64_d0 h_S_)
      (broadcastInDim S64 ![] bcast_S_S64 (dofT (F := F))))
    (broadcastInDim S64 ![] bcast_S_S64 (id (constant S_ .f32 0x7FC00000#32)))

def actT (h : A F S100000x64) (g bt : A F S64) : A F S100000x64 :=
  maximumf
    (addf
      (mulf
        (mulf
          (subf h (broadcastInDim S100000x64 ![0, 1] bcast_S1x64_S100000x64_0_1
            (broadcastInDim S1x64 ![1] bcast_S64_S1x64_1 (meanT h))))
          (broadcastInDim S100000x64 ![0, 1] bcast_S1x64_S100000x64_0_1
            (broadcastInDim S1x64 ![1] bcast_S64_S1x64_1
              (Host.rsqrt (addf (varT h) (broadcastInDim S64 ![] bcast_S_S64 (constant S_ .f32 0x3727C5AC#32)))))))
        (broadcastInDim S100000x64 ![0, 1] bcast_S1x64_S100000x64_0_1 (broadcastInDim S1x64 ![1] bcast_S64_S1x64_1 g)))
      (broadcastInDim S100000x64 ![0, 1] bcast_S1x64_S100000x64_0_1 (broadcastInDim S1x64 ![1] bcast_S64_S1x64_1 bt)))
    (broadcastInDim S100000x64 ![] bcast_S_S100000x64 (constant S_ .f32 0x00000000#32))

def xoutT (x : A F S100000x64) (v1 v3 : I F S1600000) (W1 : A F S64x64) (b1 g bt : A F S64)
    (W2 : A F S64x64) (b2 : A F S64) : A F S100000x64 :=
  addf (Host.dotGeneral dot_S100000x64_S64x64_S100000x64_1_0_0_1_n_n none (actT (hT x v1 v3 W1 b1) g bt) W2)
    (broadcastInDim S100000x64 ![0, 1] bcast_S1x64_S100000x64_0_1 (broadcastInDim S1x64 ![1] bcast_S64_S1x64_1 b2))

def scoreT (xout : A F S100000x64) (batch : I F S100000) (Wo : A F S64x10) (bo : A F S10) (s : A F S128x10) :
    A F S128x10 :=
  addf s
    (addf
      (Host.dotGeneral dot_S128x64_S64x10_S128x10_1_0_0_1_n_n none
        (Host.scatterAdd scatter_S128x64_S100000x1_S100000x64_1_0_0_1
          (broadcastInDim S128x64 ![] bcast_S_S128x64 (constant S_ .f32 0x00000000#32))
          (broadcastInDim S100000x1 ![0] bcast_S100000_S100000x1_0 batch) xout)
        Wo)
      (broadcastInDim S128x10 ![0, 1] bcast_S1x10_S128x10_0_1 (broadcastInDim S1x10 ![1] bcast_S10_S1x10_1 bo)))

end Cert.ReferenceIdeal.RTerm

end
-- ==== Proof.RRead.lean ====
import proofs.«404768_j10737418240832_1_alg».proof.Proof.RTerm
import proofs.«404768_j10737418240832_1_alg».proof.Proof.Spec
import proofs.«404768_j10737418240832_1_alg».proof.Proof.LibRows
import proofs.«404768_j10737418240832_1_alg».proof.Proof.Algebra
import Idealize.ShloMosaic.PureOps.Ideal.Laws
import Idealize.ShloMosaic.Lib.ValueIdx
import Idealize.ShloMosaic.Lib.IdealHost
import Idealize.ShloMosaic.Lib.Pipeline.Value
import Idealize.ShloMosaic.Lib.ValueLayout

noncomputable section

namespace Cert.ReferenceIdeal.RTerm

open Idealize.ShloMosaic Idealize.SL.Sem
open Cert.LibRows (plainDot dot_plain_apply)

variable {F : FTy → Type} [FloatOps F] [Facts]
open Facts₀ Facts

section Reading

open Idealize.ShloMosaic.ValueIdx Cert.Spec

theorem slab_mat {α : Type} {m a b : Nat} (l : Fin m) (off : Fin 3 → Nat) (hoff : off = ![l.val, 0, 0])
    (h : (⟨3, ![m, a, b]⟩ : Shape).Slices off ⟨3, ![1, a, b]⟩)
    (hc : (⟨3, ![1, a, b]⟩ : Shape).ShapeCasts ⟨2, ![a, b]⟩)
    (x : (⟨3, ![m, a, b]⟩ : Shape).Idx → α) (k : Fin a) (j : Fin b) :
    shapeCast ⟨2, ![a, b]⟩ (extractStridedSlice ⟨3, ![1, a, b]⟩ off x h) hc (ix2 k j) = x (ix3 l k j) := by
  subst hoff
  rw [shapeCast_1ab_ab_apply]
  exact extractStridedSlice_apply _ _ _ _ _ (fun c => by
    match c with
    | ⟨0, _⟩ => rfl
    | ⟨1, _⟩ => exact (Nat.zero_add _).symm
    | ⟨2, _⟩ => exact (Nat.zero_add _).symm)

theorem slab_vec {α : Type} {m a : Nat} (l : Fin m) (off : Fin 2 → Nat) (hoff : off = ![l.val, 0])
    (h : (⟨2, ![m, a]⟩ : Shape).Slices off ⟨2, ![1, a]⟩)
    (hc : (⟨2, ![1, a]⟩ : Shape).ShapeCasts ⟨1, ![a]⟩)
    (x : (⟨2, ![m, a]⟩ : Shape).Idx → α) (j : Fin a) :
    shapeCast ⟨1, ![a]⟩ (extractStridedSlice ⟨2, ![1, a]⟩ off x h) hc (ix1 j) = x (ix2 l j) := by
  subst hoff
  rw [shapeCast_1a_a_apply]
  exact extractStridedSlice_apply _ _ _ _ _ (fun c => by
    match c with
    | ⟨0, _⟩ => rfl
    | ⟨1, _⟩ => exact (Nat.zero_add _).symm)

theorem bcast_row_apply {α : Type} {n c : Nat} (h1 : (⟨1, ![c]⟩ : Shape).BroadcastsInDim ⟨2, ![1, c]⟩ ![1])
    (h2 : (⟨2, ![1, c]⟩ : Shape).BroadcastsInDim ⟨2, ![n, c]⟩ ![0, 1]) (v : (⟨1, ![c]⟩ : Shape).Idx → α)
    (r : Fin n) (j : Fin c) :
    broadcastInDim ⟨2, ![n, c]⟩ ![0, 1] h2 (broadcastInDim ⟨2, ![1, c]⟩ ![1] h1 v) (ix2 r j) = v (ix1 j) := by
  rw [broadcastInDim_apply ![0, 1] h2 _ (ix2 r j) (ix2 (0 : Fin 1) j) (fun a => by
      match a with
      | ⟨0, _⟩ => rfl
      | ⟨1, _⟩ =>
        show j.val = if c = 1 then 0 else j.val
        split
        · have := j.isLt; omega
        · rfl),
    broadcastInDim_apply ![1] h1 v (ix2 (0 : Fin 1) j) (ix1 j) (fun a => by
      match a with
      | ⟨0, _⟩ =>
        show j.val = if c = 1 then 0 else j.val
        split
        · have := j.isLt; omega
        · rfl)]

theorem bcast_col_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e 0) = v (ix1 e) :=
  broadcastInDim_apply ![0] h v _ (ix1 e) (fun a => by
    match a with
    | ⟨0, _⟩ =>
      show e.val = if n = 1 then 0 else e.val
      split
      · have := e.isLt; omega
      · rfl)

theorem colsum_apply (x : A Ideal S100000x64) (init : A Ideal S_) (j : Fin 64) :
    Host.reduceAdd (F := Ideal) (φ := .f32) x init reducesTo_S100000x64_S64_d0 h_S_ (ix1 j)
      = init ix0 + ∑ i : Fin 100000, x (ix2 i j) := by
  have hR : S100000x64.Reduces [0] S64 := by decide
  rw [hostReduceAdd_apply, Ideal.hostReduceAdd_single _ hR]
  refine congrArg₂ (· + ·) (congrArg init (funext fun a => a.elim0)) ?_
  refine Finset.sum_congr rfl fun i _ => congrArg x (funext fun c => Fin.ext ?_)
  match c with
  | ⟨0, _⟩ => rfl
  | ⟨1, _⟩ => rfl

theorem colsum0_apply (x : A Ideal S100000x64) (j : Fin 64) :
    Host.reduceAdd (F := Ideal) (φ := .f32) x (constant (F := Ideal) S_ .f32 0x00000000#32) reducesTo_S100000x64_S64_d0 h_S_ (ix1 j)
      = ∑ i : Fin 100000, x (ix2 i j) := by
  rw [colsum_apply, constant_apply, Ideal.ofBits_zero_f32, zero_add]

theorem slab64x64 (l : Fin 3) (off : Fin 3 → Nat) (hoff : off = ![l.val, 0, 0]) (h : S3x64x64.Slices off S1x64x64)
    (x : A Ideal S3x64x64) :
    tab (shapeCast S64x64 (extractStridedSlice S1x64x64 off x h) shapeCasts_S1x64x64_S64x64)
      = fun k j => x (ix3 l k j) := by
  funext k j
  exact slab_mat l off hoff h _ x k j

theorem slab64x10 (l : Fin 3) (off : Fin 3 → Nat) (hoff : off = ![l.val, 0, 0]) (h : S3x64x10.Slices off S1x64x10)
    (x : A Ideal S3x64x10) :
    tab (shapeCast S64x10 (extractStridedSlice S1x64x10 off x h) shapeCasts_S1x64x10_S64x10)
      = fun k j => x (ix3 l k j) := by
  funext k j
  exact slab_mat l off hoff h _ x k j

theorem slab64 (l : Fin 3) (off : Fin 2 → Nat) (hoff : off = ![l.val, 0]) (h : S3x64.Slices off S1x64)
    (x : A F S3x64) (j : Fin 64) :
    shapeCast S64 (extractStridedSlice S1x64 off x h) shapeCasts_S1x64_S64 (ix1 j) = x (ix2 l j) :=
  slab_vec l off hoff h _ x j

theorem slab10 (l : Fin 3) (off : Fin 2 → Nat) (hoff : off = ![l.val, 0]) (h : S3x10.Slices off S1x10)
    (x : A F S3x10) (j : Fin 10) :
    shapeCast S10 (extractStridedSlice S1x10 off x h) shapeCasts_S1x10_S10 (ix1 j) = x (ix2 l j) :=
  slab_vec l off hoff h _ x j

theorem edgeRow (r : Fin 2) (off : Fin 2 → Nat) (hoff : off = ![r.val, 0]) (h : S2x1600000.Slices off S1x1600000)
    (ei : I F S2x1600000) (e : Fin 1600000) :
    shapeCast S1600000 (extractStridedSlice S1x1600000 off ei h) shapeCasts_S1x1600000_S1600000 (ix1 e)
      = ei (ix2 r e) :=
  slab_vec r off hoff h _ ei e

theorem bcast_rows_apply {α : Type} {n c : Nat} (h2 : (⟨2, ![1, c]⟩ : Shape).BroadcastsInDim ⟨2, ![n, c]⟩ ![0, 1])
    (w : (⟨2, ![1, c]⟩ : Shape).Idx → α) (r : Fin n) (j : Fin c) :
    broadcastInDim ⟨2, ![n, c]⟩ ![0, 1] h2 w (ix2 r j) = w (ix2 (0 : Fin 1) j) :=
  broadcastInDim_apply ![0, 1] h2 w (ix2 r j) (ix2 (0 : Fin 1) j) (fun a => by
    match a with
    | ⟨0, _⟩ => rfl
    | ⟨1, _⟩ =>
      show j.val = if c = 1 then 0 else j.val
      split
      · have := j.isLt; omega
      · rfl)

theorem bcast_unitrow_apply {α : Type} {c : Nat} (h1 : (⟨1, ![c]⟩ : Shape).BroadcastsInDim ⟨2, ![1, c]⟩ ![1])
    (v : (⟨1, ![c]⟩ : Shape).Idx → α) (j : Fin c) :
    broadcastInDim ⟨2, ![1, c]⟩ ![1] h1 v (ix2 (0 : Fin 1) j) = v (ix1 j) :=
  broadcastInDim_apply ![1] h1 v (ix2 (0 : Fin 1) j) (ix1 j) (fun a => by
    match a with
    | ⟨0, _⟩ =>
      show j.val = if c = 1 then 0 else j.val
      split
      · have := j.isLt; omega
      · rfl)

theorem wrapT_apply (v1 : I Ideal S1600000) (e : Fin 1600000) :
    wrapT (F := Ideal) v1 (ix1 e) = wrapN 100000 (v1 (ix1 e)) := by
  show Scalar.select
      (IntOp.cmpi .slt (v1 (ix1 e)) (broadcastInDim S1600000 ![] bcast_S_S1600000 (constantI S_ 32 0#32) (ix1 e)))
      (IntOp.addi (v1 (ix1 e)) (broadcastInDim S1600000 ![] bcast_S_S1600000 (constantI S_ 32 100000#32) (ix1 e)))
      (v1 (ix1 e)) = _
  rw [broadcastInDim_scalar_apply, broadcastInDim_scalar_apply]
  exact Cert.LibRows.wrap_word 100000 (v1 (ix1 e))

theorem aggT_apply (x : A Ideal S100000x64) (v1 v3 : I Ideal S1600000) (r : Fin 100000) (j : Fin 64) :
    aggT (F := Ideal) x v1 v3 (ix2 r j) = agg (tab x) (fun e => v1 (ix1 e)) (fun e => v3 (ix1 e)) r j := by
  have hs : scatter_S100000x64_S1600000x1_S1600000x64_1_0_0_1
      = Cert.LibRows.rowScatterDims 100000 64 1600000 scatter_S100000x64_S1600000x1_S1600000x64_1_0_0_1_wf := rfl
  have hg : gather_S100000x64_S1600000x1_S1600000x64_1_0_n_n_0_1_164
      = Cert.LibRows.rowGatherDims 100000 64 1600000 gather_S100000x64_S1600000x1_S1600000x64_1_0_n_n_0_1_164_wf := rfl
  unfold aggT agg
  rw [addf_apply, hs, hg, Cert.LibRows.scatterAdd_rows_apply, broadcastInDim_scalar_apply, constant_apply,
    Ideal.ofBits_zero_f32, zero_add]
  refine congrArg₂ (· + ·) rfl ?_
  refine Finset.sum_congr rfl fun e _ => ?_
  rw [bcast_col_apply, Cert.LibRows.gather_rows_apply (by decide), bcast_col_apply, wrapT_apply]
  rfl

theorem hT_apply (x : A Ideal S100000x64) (v1 v3 : I Ideal S1600000) (W1 : A Ideal S64x64) (b1 : A Ideal S64)
    (r : Fin 100000) (j : Fin 64) :
    hT (F := Ideal) x v1 v3 W1 b1 (ix2 r j)
      = lin (agg (tab x) (fun e => v1 (ix1 e)) (fun e => v3 (ix1 e))) (tab W1) (fun j => b1 (ix1 j)) r j := by
  have hd : dot_S100000x64_S64x64_S100000x64_1_0_0_1_n_n
      = plainDot 100000 64 64 dot_S100000x64_S64x64_S100000x64_1_0_0_1_n_n_wf := rfl
  unfold hT lin
  rw [addf_apply, bcast_row_apply, hd, dot_plain_apply]
  refine congrArg₂ (· + ·) ?_ rfl
  exact Finset.sum_congr rfl fun k _ => by rw [aggT_apply]; rfl

theorem meanT_apply (h : A Ideal S100000x64) (j : Fin 64) : meanT (F := Ideal) h (ix1 j) = mean (tab h) j := by
  unfold meanT
  rw [hostDivf_apply, colsum0_apply, broadcastInDim_scalar_apply]
  rfl

theorem dofT_apply : dofT (F := Ideal) ix0 = nrows := by
  show Ideal.ofBits .f32 0x47C35000#32 - (((0#32 : BitVec 32).toInt : ℝ) : EReal) = nrows
  have h0 : (((0#32 : BitVec 32).toInt : ℝ) : EReal) = 0 := by simp
  rw [h0, sub_zero]

theorem guard_one : FloatOps.cmpf (F := Ideal) (φ := .f32) .ogt nrows (Ideal.ofBits .f32 0x00000000#32) = 1#1 := by
  have hpos : (0 : EReal) < nrows := by
    rw [Cert.Algebra.nrows_eq]
    exact_mod_cast (by norm_num : (0 : ℝ) < 100000)
  rw [Ideal.ofBits_zero_f32]
  show BitVec.ofBool (decide ((0 : EReal) < nrows)) = 1#1
  rw [decide_eq_true hpos]
  rfl

theorem devT_apply (h : A Ideal S100000x64) (i : Fin 100000) (j : Fin 64) :
    devT (F := Ideal) h (ix2 i j) = tab h i j - mean (tab h) j := by
  unfold devT
  rw [subf_apply, bcast_rows_apply, hostDivf_apply, bcast_unitrow_apply, colsum0_apply, broadcastInDim_scalar_apply]
  rfl

theorem guard_apply (j : Fin 64) :
    broadcastInDim S64 ![] bcast_S_S64
      (cmpf .ogt (dofT (F := Ideal)) (constant (F := Ideal) S_ .f32 0x00000000#32)) (ix1 j) = 1#1 := by
  rw [broadcastInDim_scalar_apply, cmpf_apply, dofT_apply, constant_apply]
  exact guard_one

theorem varT_apply (h : A Ideal S100000x64) (j : Fin 64) : varT (F := Ideal) h (ix1 j) = varR (tab h) j := by
  unfold varT
  rw [select_apply, guard_apply, select_one, hostDivf_apply, colsum0_apply, broadcastInDim_scalar_apply, dofT_apply]
  unfold varR
  refine congrArg (fun s => Ideal.div s nrows) ?_
  exact Finset.sum_congr rfl fun i _ => by rw [mulf_apply, devT_apply]

theorem actT_apply (h : A Ideal S100000x64) (g bt : A Ideal S64) (r : Fin 100000) (j : Fin 64) :
    actT (F := Ideal) h g bt (ix2 r j)
      = bnrelu (tab h) (mean (tab h)) (varR (tab h)) (fun j => g (ix1 j)) (fun j => bt (ix1 j)) r j := by
  unfold actT bnrelu
  rw [maximumf_apply, addf_apply, mulf_apply, mulf_apply, subf_apply, bcast_row_apply, bcast_row_apply,
    bcast_row_apply, bcast_row_apply, broadcastInDim_scalar_apply, constant_apply, Ideal.ofBits_zero_f32, meanT_apply]
  show max ((h (ix2 r j) - mean (tab h) j) * Ideal.rsqrt (varT (F := Ideal) h (ix1 j) + eps) * g (ix1 j) + bt (ix1 j)) 0 = _
  rw [varT_apply]
  rfl

theorem xoutT_eq (x : A Ideal S100000x64) (v1 v3 : I Ideal S1600000) (W1 : A Ideal S64x64) (b1 g bt : A Ideal S64)
    (W2 : A Ideal S64x64) (b2 : A Ideal S64) (Wo : Tab 64 10) (bo : Fin 10 → EReal) :
    xoutT (F := Ideal) x v1 v3 W1 b1 g bt W2 b2
      = mk (nextX varR ⟨tab W1, fun j => b1 (ix1 j), fun j => g (ix1 j), fun j => bt (ix1 j), tab W2,
          fun j => b2 (ix1 j), Wo, bo⟩ (fun e => v1 (ix1 e)) (fun e => v3 (ix1 e)) (tab x)) := by
  have hd : dot_S100000x64_S64x64_S100000x64_1_0_0_1_n_n
      = plainDot 100000 64 64 dot_S100000x64_S64x64_S100000x64_1_0_0_1_n_n_wf := rfl
  have hh : tab (hT (F := Ideal) x v1 v3 W1 b1)
      = lin (agg (tab x) (fun e => v1 (ix1 e)) (fun e => v3 (ix1 e))) (tab W1) (fun j => b1 (ix1 j)) := by
    funext r k
    exact hT_apply x v1 v3 W1 b1 r k
  funext i
  obtain ⟨r, j, rfl⟩ : ∃ r j, i = ix2 r j := ⟨i 0, i 1, eq_ix2 i⟩
  unfold xoutT
  rw [addf_apply, bcast_row_apply, hd, dot_plain_apply]
  show _ = lin _ _ _ r j
  unfold lin
  refine congrArg₂ (· + ·) ?_ rfl
  refine Finset.sum_congr rfl fun k _ => ?_
  rw [actT_apply, hh]
  rfl

theorem scoreT_eq (xout : A Ideal S100000x64) (batch : I Ideal S100000) (Wo : A Ideal S64x10) (bo : A Ideal S10)
    (s : A Ideal S128x10) (P : Params) (hWo : P.Wo = tab Wo) (hbo : P.bo = fun o => bo (ix1 o)) :
    scoreT (F := Ideal) xout batch Wo bo s = mk (nextScore P (fun e => batch (ix1 e)) (tab xout) (tab s)) := by
  have hd : dot_S128x64_S64x10_S128x10_1_0_0_1_n_n = plainDot 128 64 10 dot_S128x64_S64x10_S128x10_1_0_0_1_n_n_wf := rfl
  have hs : scatter_S128x64_S100000x1_S100000x64_1_0_0_1
      = Cert.LibRows.rowScatterDims 128 64 100000 scatter_S128x64_S100000x1_S100000x64_1_0_0_1_wf := rfl
  funext i
  obtain ⟨a, o, rfl⟩ : ∃ a o, i = ix2 a o := ⟨i 0, i 1, eq_ix2 i⟩
  unfold scoreT
  rw [addf_apply, addf_apply, bcast_row_apply, hd, dot_plain_apply]
  show _ = tab s a o + lin (Cert.Spec.pool (fun e => batch (ix1 e)) (tab xout)) P.Wo P.bo a o
  unfold lin
  rw [hWo, hbo]
  refine congrArg₂ (· + ·) rfl (congrArg₂ (· + ·) ?_ rfl)
  refine Finset.sum_congr rfl fun k _ => ?_
  refine congrArg₂ (· * ·) ?_ rfl
  rw [hs, Cert.LibRows.scatterAdd_rows_apply, broadcastInDim_scalar_apply, constant_apply, Ideal.ofBits_zero_f32, zero_add]
  unfold Cert.Spec.pool
  refine Finset.sum_congr rfl fun e _ => ?_
  rw [bcast_col_apply]
  rfl

end Reading

end Cert.ReferenceIdeal.RTerm

end
-- ==== Proof.ROps.lean ====
import proofs.«404768_j10737418240832_1_alg».proof.ReferenceIdeal
import proofs.«404768_j10737418240832_1_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_cst (constant S_ .f32 0x00000000#32),
    StableHlo.unary main_cst main_v4 (broadcastInDim S128x10 ![] bcast_S_S128x10),
    StableHlo.unary main_arg3 main_v5 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v5 main_v6 rfl shapeCasts_S1x64x64_S64x64,
    StableHlo.unary main_arg4 main_v7 ((extractStridedSlice S1x64 ![0, 0] · slices_S3x64_S1x64_0_0) : (⟨S3x64, .f32⟩ : BufTy).Contents (Elt F) → (⟨S1x64, .f32⟩ : BufTy).Contents (Elt F)),
    StableHlo.reshape main_v7 main_v8 rfl shapeCasts_S1x64_S64,
    StableHlo.unary main_arg5 main_v9 ((extractStridedSlice S1x64 ![0, 0] · slices_S3x64_S1x64_0_0) : (⟨S3x64, .f32⟩ : BufTy).Contents (Elt F) → (⟨S1x64, .f32⟩ : BufTy).Contents (Elt F)),
    StableHlo.reshape main_v9 main_v10 rfl shapeCasts_S1x64_S64,
    StableHlo.unary main_arg6 main_v11 ((extractStridedSlice S1x64 ![0, 0] · slices_S3x64_S1x64_0_0) : (⟨S3x64, .f32⟩ : BufTy).Contents (Elt F) → (⟨S1x64, .f32⟩ : BufTy).Contents (Elt F)),
    StableHlo.reshape main_v11 main_v12 rfl shapeCasts_S1x64_S64,
    StableHlo.unary main_arg7 main_v13 ((extractStridedSlice S1x64x64 ![0, 0, 0] · slices_S3x64x64_S1x64x64_0_0_0) : (⟨S3x64x64, .f32⟩ : BufTy).Contents (Elt F) → (⟨S1x64x64, .f32⟩ : BufTy).Contents (Elt F)),
    StableHlo.reshape main_v13 main_v14 rfl shapeCasts_S1x64x64_S64x64,
    StableHlo.unary main_arg8 main_v15 ((extractStridedSlice S1x64 ![0, 0] · slices_S3x64_S1x64_0_0) : (⟨S3x64, .f32⟩ : BufTy).Contents (Elt F) → (⟨S1x64, .f32⟩ : BufTy).Contents (Elt F)),
    StableHlo.reshape main_v15 main_v16 rfl shapeCasts_S1x64_S64,
    StableHlo.nullary main_c (constantI S_ 32 0#32),
    StableHlo.unary main_c main_v17 (broadcastInDim S1600000 ![] bcast_S_S1600000),
    StableHlo.binary main_v1 main_v17 main_v18 (cmpi .slt),
    StableHlo.nullary main_c_0 (constantI S_ 32 100000#32),
    StableHlo.unary main_c_0 main_v19 (broadcastInDim S1600000 ![] bcast_S_S1600000),
    StableHlo.binary main_v1 main_v19 main_v20 addi,
    StableHlo.ternary main_v18 main_v20 main_v1 main_v21 select,
    StableHlo.unary main_v21 main_v22 (broadcastInDim S1600000x1 ![0] bcast_S1600000_S1600000x1_0),
    StableHlo.binary main_arg0 main_v22 main_v23 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_1 (constant S_ .f32 0x00000000#32),
    StableHlo.unary main_cst_1 main_v24 (broadcastInDim S100000x64 ![] bcast_S_S100000x64),
    StableHlo.unary main_v3 main_v25 (broadcastInDim S1600000x1 ![0] bcast_S1600000_S1600000x1_0),
    StableHlo.ternary main_v24 main_v25 main_v23 main_v26 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_arg0 main_v26 main_v27 addf,
    StableHlo.binary main_v27 main_v6 main_v28 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v8 main_v29 (broadcastInDim S1x64 ![1] bcast_S64_S1x64_1),
    StableHlo.unary main_v29 main_v30 (broadcastInDim S100000x64 ![0, 1] bcast_S1x64_S100000x64_0_1),
    StableHlo.binary main_v28 main_v30 main_v31 addf,
    StableHlo.nullary main_cst_2 (constant S_ .f32 0x00000000#32),
    StableHlo.binary main_v31 main_cst_2 main_v32 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_3 (constant S_ .f32 0x47C35000#32),
    StableHlo.unary main_cst_3 main_v33 (broadcastInDim S64 ![] bcast_S_S64),
    StableHlo.binary main_v32 main_v33 main_v34 Host.divf,
    StableHlo.nullary main_c_4 (constantI S_ 32 0#32),
    StableHlo.TRef.nullary main_call0.cst (constant S_ .f32 0x00000000#32),
    StableHlo.TRef.binary (.of main_v31 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v31 : StableHlo.TRef sig ⟨S100000x64, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v34 main_v36 (broadcastInDim S1x64 ![1] bcast_S64_S1x64_1),
    StableHlo.unary main_v36 main_v37 (broadcastInDim S100000x64 ![0, 1] bcast_S1x64_S100000x64_0_1),
    StableHlo.binary main_v31 main_v37 main_v38 subf,
    StableHlo.nullary main_cst_5 (constant S_ .f32 0x3727C5AC#32),
    StableHlo.unary main_cst_5 main_v39 (broadcastInDim S64 ![] bcast_S_S64),
    StableHlo.binary main_v35 main_v39 main_v40 addf,
    StableHlo.unary main_v40 main_v41 Host.rsqrt,
    StableHlo.unary main_v41 main_v42 (broadcastInDim S1x64 ![1] bcast_S64_S1x64_1),
    StableHlo.unary main_v42 main_v43 (broadcastInDim S100000x64 ![0, 1] bcast_S1x64_S100000x64_0_1),
    StableHlo.binary main_v38 main_v43 main_v44 mulf,
    StableHlo.unary main_v10 main_v45 (broadcastInDim S1x64 ![1] bcast_S64_S1x64_1),
    StableHlo.unary main_v45 main_v46 (broadcastInDim S100000x64 ![0, 1] bcast_S1x64_S100000x64_0_1),
    StableHlo.binary main_v44 main_v46 main_v47 mulf,
    StableHlo.unary main_v12 main_v48 (broadcastInDim S1x64 ![1] bcast_S64_S1x64_1),
    StableHlo.unary main_v48 main_v49 (broadcastInDim S100000x64 ![0, 1] bcast_S1x64_S100000x64_0_1),
    StableHlo.binary main_v47 main_v49 main_v50 addf,
    StableHlo.TRef.nullary main_call1.cst (constant S_ .f32 0x00000000#32),
    StableHlo.TRef.unary main_call1.cst main_call1.v0 (broadcastInDim S100000x64 ![] bcast_S_S100000x64),
    StableHlo.TRef.binary (.of main_v50 : StableHlo.TRef sig ⟨S100000x64, .f32⟩) main_call1.v0 main_call1.v1 maximumf,
    StableHlo.binary main_v51 main_v14 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v16 main_v53 (broadcastInDim S1x64 ![1] bcast_S64_S1x64_1),
    StableHlo.unary main_v53 main_v54 (broadcastInDim S100000x64 ![0, 1] bcast_S1x64_S100000x64_0_1),
    StableHlo.binary main_v52 main_v54 main_v55 addf,
    StableHlo.nullary main_cst_6 (constant S_ .f32 0x00000000#32),
    StableHlo.unary main_cst_6 main_v56 (broadcastInDim S128x64 ![] bcast_S_S128x64),
    StableHlo.unary main_arg2 main_v57 (broadcastInDim S100000x1 ![0] bcast_S100000_S100000x1_0),
    StableHlo.ternary main_v56 main_v57 main_v55 main_v58 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.unary main_arg9 main_v59 ((extractStridedSlice S1x64x10 ![0, 0, 0] · slices_S3x64x10_S1x64x10_0_0_0) : (⟨S3x64x10, .f32⟩ : BufTy).Contents (Elt F) → (⟨S1x64x10, .f32⟩ : BufTy).Contents (Elt F)),
    StableHlo.reshape main_v59 main_v60 rfl shapeCasts_S1x64x10_S64x10,
    StableHlo.binary main_v58 main_v60 main_v61 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    StableHlo.unary main_arg10 main_v62 ((extractStridedSlice S1x10 ![0, 0] · slices_S3x10_S1x10_0_0) : (⟨S3x10, .f32⟩ : BufTy).Contents (Elt F) → (⟨S1x10, .f32⟩ : BufTy).Contents (Elt F)),
    StableHlo.reshape main_v62 main_v63 rfl shapeCasts_S1x10_S10,
    StableHlo.unary main_v63 main_v64 (broadcastInDim S1x10 ![1] bcast_S10_S1x10_1),
    StableHlo.unary main_v64 main_v65 (broadcastInDim S128x10 ![0, 1] bcast_S1x10_S128x10_0_1),
    StableHlo.binary main_v61 main_v65 main_v66 addf,
    StableHlo.binary main_v4 main_v66 main_v67 addf ]

abbrev ops1 : List (HloOp τ sig (Elt F)) :=
  [ StableHlo.unary main_arg3 main_v68 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v68 main_v69 rfl shapeCasts_S1x64x64_S64x64,
    StableHlo.unary main_arg4 main_v70 ((extractStridedSlice S1x64 ![1, 0] · slices_S3x64_S1x64_1_0) : (⟨S3x64, .f32⟩ : BufTy).Contents (Elt F) → (⟨S1x64, .f32⟩ : BufTy).Contents (Elt F)),
    StableHlo.reshape main_v70 main_v71 rfl shapeCasts_S1x64_S64,
    StableHlo.unary main_arg5 main_v72 ((extractStridedSlice S1x64 ![1, 0] · slices_S3x64_S1x64_1_0) : (⟨S3x64, .f32⟩ : BufTy).Contents (Elt F) → (⟨S1x64, .f32⟩ : BufTy).Contents (Elt F)),
    StableHlo.reshape main_v72 main_v73 rfl shapeCasts_S1x64_S64,
    StableHlo.unary main_arg6 main_v74 ((extractStridedSlice S1x64 ![1, 0] · slices_S3x64_S1x64_1_0) : (⟨S3x64, .f32⟩ : BufTy).Contents (Elt F) → (⟨S1x64, .f32⟩ : BufTy).Contents (Elt F)),
    StableHlo.reshape main_v74 main_v75 rfl shapeCasts_S1x64_S64,
    StableHlo.unary main_arg7 main_v76 ((extractStridedSlice S1x64x64 ![1, 0, 0] · slices_S3x64x64_S1x64x64_1_0_0) : (⟨S3x64x64, .f32⟩ : BufTy).Contents (Elt F) → (⟨S1x64x64, .f32⟩ : BufTy).Contents (Elt F)),
    StableHlo.reshape main_v76 main_v77 rfl shapeCasts_S1x64x64_S64x64,
    StableHlo.unary main_arg8 main_v78 ((extractStridedSlice S1x64 ![1, 0] · slices_S3x64_S1x64_1_0) : (⟨S3x64, .f32⟩ : BufTy).Contents (Elt F) → (⟨S1x64, .f32⟩ : BufTy).Contents (Elt F)),
    StableHlo.reshape main_v78 main_v79 rfl shapeCasts_S1x64_S64,
    StableHlo.nullary main_c_7 (constantI S_ 32 0#32),
    StableHlo.unary main_c_7 main_v80 (broadcastInDim S1600000 ![] bcast_S_S1600000),
    StableHlo.binary main_v1 main_v80 main_v81 (cmpi .slt),
    StableHlo.nullary main_c_8 (constantI S_ 32 100000#32),
    StableHlo.unary main_c_8 main_v82 (broadcastInDim S1600000 ![] bcast_S_S1600000),
    StableHlo.binary main_v1 main_v82 main_v83 addi,
    StableHlo.ternary main_v81 main_v83 main_v1 main_v84 select,
    StableHlo.unary main_v84 main_v85 (broadcastInDim S1600000x1 ![0] bcast_S1600000_S1600000x1_0),
    StableHlo.binary main_v55 main_v85 main_v86 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_9 (constant S_ .f32 0x00000000#32),
    StableHlo.unary main_cst_9 main_v87 (broadcastInDim S100000x64 ![] bcast_S_S100000x64),
    StableHlo.unary main_v3 main_v88 (broadcastInDim S1600000x1 ![0] bcast_S1600000_S1600000x1_0),
    StableHlo.ternary main_v87 main_v88 main_v86 main_v89 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v55 main_v89 main_v90 addf,
    StableHlo.binary main_v90 main_v69 main_v91 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v71 main_v92 (broadcastInDim S1x64 ![1] bcast_S64_S1x64_1),
    StableHlo.unary main_v92 main_v93 (broadcastInDim S100000x64 ![0, 1] bcast_S1x64_S100000x64_0_1),
    StableHlo.binary main_v91 main_v93 main_v94 addf,
    StableHlo.nullary main_cst_10 (constant S_ .f32 0x00000000#32),
    StableHlo.binary main_v94 main_cst_10 main_v95 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_11 (constant S_ .f32 0x47C35000#32),
    StableHlo.unary main_cst_11 main_v96 (broadcastInDim S64 ![] bcast_S_S64),
    StableHlo.binary main_v95 main_v96 main_v97 Host.divf,
    StableHlo.nullary main_c_12 (constantI S_ 32 0#32),
    StableHlo.TRef.nullary main_call2.cst (constant S_ .f32 0x00000000#32),
    StableHlo.TRef.binary (.of main_v94 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v94 : StableHlo.TRef sig ⟨S100000x64, .f32⟩) main_call2.v4 main_call2.v5 subf,
    StableHlo.TRef.binary main_call2.v5 main_call2.v5 main_call2.v6 mulf,
    StableHlo.TRef.unary (.of main_c_12 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v97 main_v99 (broadcastInDim S1x64 ![1] bcast_S64_S1x64_1),
    StableHlo.unary main_v99 main_v100 (broadcastInDim S100000x64 ![0, 1] bcast_S1x64_S100000x64_0_1),
    StableHlo.binary main_v94 main_v100 main_v101 subf,
    StableHlo.nullary main_cst_13 (constant S_ .f32 0x3727C5AC#32),
    StableHlo.unary main_cst_13 main_v102 (broadcastInDim S64 ![] bcast_S_S64),
    StableHlo.binary main_v98 main_v102 main_v103 addf,
    StableHlo.unary main_v103 main_v104 Host.rsqrt,
    StableHlo.unary main_v104 main_v105 (broadcastInDim S1x64 ![1] bcast_S64_S1x64_1),
    StableHlo.unary main_v105 main_v106 (broadcastInDim S100000x64 ![0, 1] bcast_S1x64_S100000x64_0_1),
    StableHlo.binary main_v101 main_v106 main_v107 mulf,
    StableHlo.unary main_v73 main_v108 (broadcastInDim S1x64 ![1] bcast_S64_S1x64_1),
    StableHlo.unary main_v108 main_v109 (broadcastInDim S100000x64 ![0, 1] bcast_S1x64_S100000x64_0_1),
    StableHlo.binary main_v107 main_v109 main_v110 mulf,
    StableHlo.unary main_v75 main_v111 (broadcastInDim S1x64 ![1] bcast_S64_S1x64_1),
    StableHlo.unary main_v111 main_v112 (broadcastInDim S100000x64 ![0, 1] bcast_S1x64_S100000x64_0_1),
    StableHlo.binary main_v110 main_v112 main_v113 addf,
    StableHlo.TRef.nullary main_call3.cst (constant S_ .f32 0x00000000#32),
    StableHlo.TRef.unary main_call3.cst main_call3.v0 (broadcastInDim S100000x64 ![] bcast_S_S100000x64),
    StableHlo.TRef.binary (.of main_v113 : StableHlo.TRef sig ⟨S100000x64, .f32⟩) main_call3.v0 main_call3.v1 maximumf,
    StableHlo.binary main_v114 main_v77 main_v115 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v79 main_v116 (broadcastInDim S1x64 ![1] bcast_S64_S1x64_1),
    StableHlo.unary main_v116 main_v117 (broadcastInDim S100000x64 ![0, 1] bcast_S1x64_S100000x64_0_1),
    StableHlo.binary main_v115 main_v117 main_v118 addf,
    StableHlo.nullary main_cst_14 (constant S_ .f32 0x00000000#32),
    StableHlo.unary main_cst_14 main_v119 (broadcastInDim S128x64 ![] bcast_S_S128x64),
    StableHlo.unary main_arg2 main_v120 (broadcastInDim S100000x1 ![0] bcast_S100000_S100000x1_0),
    StableHlo.ternary main_v119 main_v120 main_v118 main_v121 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.unary main_arg9 main_v122 ((extractStridedSlice S1x64x10 ![1, 0, 0] · slices_S3x64x10_S1x64x10_1_0_0) : (⟨S3x64x10, .f32⟩ : BufTy).Contents (Elt F) → (⟨S1x64x10, .f32⟩ : BufTy).Contents (Elt F)),
    StableHlo.reshape main_v122 main_v123 rfl shapeCasts_S1x64x10_S64x10,
    StableHlo.binary main_v121 main_v123 main_v124 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    StableHlo.unary main_arg10 main_v125 ((extractStridedSlice S1x10 ![1, 0] · slices_S3x10_S1x10_1_0) : (⟨S3x10, .f32⟩ : BufTy).Contents (Elt F) → (⟨S1x10, .f32⟩ : BufTy).Contents (Elt F)),
    StableHlo.reshape main_v125 main_v126 rfl shapeCasts_S1x10_S10,
    StableHlo.unary main_v126 main_v127 (broadcastInDim S1x10 ![1] bcast_S10_S1x10_1),
    StableHlo.unary main_v127 main_v128 (broadcastInDim S128x10 ![0, 1] bcast_S1x10_S128x10_0_1),
    StableHlo.binary main_v124 main_v128 main_v129 addf,
    StableHlo.binary main_v67 main_v129 main_v130 addf ]

abbrev ops2 : List (HloOp τ sig (Elt F)) :=
  [ StableHlo.unary main_arg3 main_v131 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v131 main_v132 rfl shapeCasts_S1x64x64_S64x64,
    StableHlo.unary main_arg4 main_v133 ((extractStridedSlice S1x64 ![2, 0] · slices_S3x64_S1x64_2_0) : (⟨S3x64, .f32⟩ : BufTy).Contents (Elt F) → (⟨S1x64, .f32⟩ : BufTy).Contents (Elt F)),
    StableHlo.reshape main_v133 main_v134 rfl shapeCasts_S1x64_S64,
    StableHlo.unary main_arg5 main_v135 ((extractStridedSlice S1x64 ![2, 0] · slices_S3x64_S1x64_2_0) : (⟨S3x64, .f32⟩ : BufTy).Contents (Elt F) → (⟨S1x64, .f32⟩ : BufTy).Contents (Elt F)),
    StableHlo.reshape main_v135 main_v136 rfl shapeCasts_S1x64_S64,
    StableHlo.unary main_arg6 main_v137 ((extractStridedSlice S1x64 ![2, 0] · slices_S3x64_S1x64_2_0) : (⟨S3x64, .f32⟩ : BufTy).Contents (Elt F) → (⟨S1x64, .f32⟩ : BufTy).Contents (Elt F)),
    StableHlo.reshape main_v137 main_v138 rfl shapeCasts_S1x64_S64,
    StableHlo.unary main_arg7 main_v139 ((extractStridedSlice S1x64x64 ![2, 0, 0] · slices_S3x64x64_S1x64x64_2_0_0) : (⟨S3x64x64, .f32⟩ : BufTy).Contents (Elt F) → (⟨S1x64x64, .f32⟩ : BufTy).Contents (Elt F)),
    StableHlo.reshape main_v139 main_v140 rfl shapeCasts_S1x64x64_S64x64,
    StableHlo.unary main_arg8 main_v141 ((extractStridedSlice S1x64 ![2, 0] · slices_S3x64_S1x64_2_0) : (⟨S3x64, .f32⟩ : BufTy).Contents (Elt F) → (⟨S1x64, .f32⟩ : BufTy).Contents (Elt F)),
    StableHlo.reshape main_v141 main_v142 rfl shapeCasts_S1x64_S64,
    StableHlo.nullary main_c_15 (constantI S_ 32 0#32),
    StableHlo.unary main_c_15 main_v143 (broadcastInDim S1600000 ![] bcast_S_S1600000),
    StableHlo.binary main_v1 main_v143 main_v144 (cmpi .slt),
    StableHlo.nullary main_c_16 (constantI S_ 32 100000#32),
    StableHlo.unary main_c_16 main_v145 (broadcastInDim S1600000 ![] bcast_S_S1600000),
    StableHlo.binary main_v1 main_v145 main_v146 addi,
    StableHlo.ternary main_v144 main_v146 main_v1 main_v147 select,
    StableHlo.unary main_v147 main_v148 (broadcastInDim S1600000x1 ![0] bcast_S1600000_S1600000x1_0),
    StableHlo.binary main_v118 main_v148 main_v149 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_17 (constant S_ .f32 0x00000000#32),
    StableHlo.unary main_cst_17 main_v150 (broadcastInDim S100000x64 ![] bcast_S_S100000x64),
    StableHlo.unary main_v3 main_v151 (broadcastInDim S1600000x1 ![0] bcast_S1600000_S1600000x1_0),
    StableHlo.ternary main_v150 main_v151 main_v149 main_v152 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v118 main_v152 main_v153 addf,
    StableHlo.binary main_v153 main_v132 main_v154 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v134 main_v155 (broadcastInDim S1x64 ![1] bcast_S64_S1x64_1),
    StableHlo.unary main_v155 main_v156 (broadcastInDim S100000x64 ![0, 1] bcast_S1x64_S100000x64_0_1),
    StableHlo.binary main_v154 main_v156 main_v157 addf,
    StableHlo.nullary main_cst_18 (constant S_ .f32 0x00000000#32),
    StableHlo.binary main_v157 main_cst_18 main_v158 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v159 (broadcastInDim S64 ![] bcast_S_S64),
    StableHlo.binary main_v158 main_v159 main_v160 Host.divf,
    StableHlo.nullary main_c_20 (constantI S_ 32 0#32),
    StableHlo.TRef.nullary main_call4.cst (constant S_ .f32 0x00000000#32),
    StableHlo.TRef.binary (.of main_v157 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v157 : StableHlo.TRef sig ⟨S100000x64, .f32⟩) main_call4.v4 main_call4.v5 subf,
    StableHlo.TRef.binary main_call4.v5 main_call4.v5 main_call4.v6 mulf,
    StableHlo.TRef.unary (.of main_c_20 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v160 main_v162 (broadcastInDim S1x64 ![1] bcast_S64_S1x64_1),
    StableHlo.unary main_v162 main_v163 (broadcastInDim S100000x64 ![0, 1] bcast_S1x64_S100000x64_0_1),
    StableHlo.binary main_v157 main_v163 main_v164 subf,
    StableHlo.nullary main_cst_21 (constant S_ .f32 0x3727C5AC#32),
    StableHlo.unary main_cst_21 main_v165 (broadcastInDim S64 ![] bcast_S_S64),
    StableHlo.binary main_v161 main_v165 main_v166 addf,
    StableHlo.unary main_v166 main_v167 Host.rsqrt,
    StableHlo.unary main_v167 main_v168 (broadcastInDim S1x64 ![1] bcast_S64_S1x64_1),
    StableHlo.unary main_v168 main_v169 (broadcastInDim S100000x64 ![0, 1] bcast_S1x64_S100000x64_0_1),
    StableHlo.binary main_v164 main_v169 main_v170 mulf,
    StableHlo.unary main_v136 main_v171 (broadcastInDim S1x64 ![1] bcast_S64_S1x64_1),
    StableHlo.unary main_v171 main_v172 (broadcastInDim S100000x64 ![0, 1] bcast_S1x64_S100000x64_0_1),
    StableHlo.binary main_v170 main_v172 main_v173 mulf,
    StableHlo.unary main_v138 main_v174 (broadcastInDim S1x64 ![1] bcast_S64_S1x64_1),
    StableHlo.unary main_v174 main_v175 (broadcastInDim S100000x64 ![0, 1] bcast_S1x64_S100000x64_0_1),
    StableHlo.binary main_v173 main_v175 main_v176 addf,
    StableHlo.TRef.nullary main_call5.cst (constant S_ .f32 0x00000000#32),
    StableHlo.TRef.unary main_call5.cst main_call5.v0 (broadcastInDim S100000x64 ![] bcast_S_S100000x64),
    StableHlo.TRef.binary (.of main_v176 : StableHlo.TRef sig ⟨S100000x64, .f32⟩) main_call5.v0 main_call5.v1 maximumf,
    StableHlo.binary main_v177 main_v140 main_v178 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v142 main_v179 (broadcastInDim S1x64 ![1] bcast_S64_S1x64_1),
    StableHlo.unary main_v179 main_v180 (broadcastInDim S100000x64 ![0, 1] bcast_S1x64_S100000x64_0_1),
    StableHlo.binary main_v178 main_v180 main_v181 addf,
    StableHlo.nullary main_cst_22 (constant S_ .f32 0x00000000#32),
    StableHlo.unary main_cst_22 main_v182 (broadcastInDim S128x64 ![] bcast_S_S128x64),
    StableHlo.unary main_arg2 main_v183 (broadcastInDim S100000x1 ![0] bcast_S100000_S100000x1_0),
    StableHlo.ternary main_v182 main_v183 main_v181 main_v184 ((fun x i u => Host.scatterAdd scatter_S128x64_S100000x1_S100000x64_1_0_0_1 x i u) : (⟨S128x64, .f32⟩ : BufTy).Contents (Elt F) → (⟨S100000x1, .i32⟩ : BufTy).Contents (Elt F) → (⟨S100000x64, .f32⟩ : BufTy).Contents (Elt F) → (⟨S128x64, .f32⟩ : BufTy).Contents (Elt F)),
    StableHlo.unary main_arg9 main_v185 ((extractStridedSlice S1x64x10 ![2, 0, 0] · slices_S3x64x10_S1x64x10_2_0_0) : (⟨S3x64x10, .f32⟩ : BufTy).Contents (Elt F) → (⟨S1x64x10, .f32⟩ : BufTy).Contents (Elt F)),
    StableHlo.reshape main_v185 main_v186 rfl shapeCasts_S1x64x10_S64x10,
    StableHlo.binary main_v184 main_v186 main_v187 ((fun l r => Host.dotGeneral dot_S128x64_S64x10_S128x10_1_0_0_1_n_n none l r) : (⟨S128x64, .f32⟩ : BufTy).Contents (Elt F) → (⟨S64x10, .f32⟩ : BufTy).Contents (Elt F) → (⟨S128x10, .f32⟩ : BufTy).Contents (Elt F)),
    StableHlo.unary main_arg10 main_v188 ((extractStridedSlice S1x10 ![2, 0] · slices_S3x10_S1x10_2_0) : (⟨S3x10, .f32⟩ : BufTy).Contents (Elt F) → (⟨S1x10, .f32⟩ : BufTy).Contents (Elt F)),
    StableHlo.reshape main_v188 main_v189 rfl shapeCasts_S1x10_S10,
    StableHlo.unary main_v189 main_v190 (broadcastInDim S1x10 ![1] bcast_S10_S1x10_1),
    StableHlo.unary main_v190 main_v191 (broadcastInDim S128x10 ![0, 1] bcast_S1x10_S128x10_0_1),
    StableHlo.binary main_v187 main_v191 main_v192 addf,
    StableHlo.binary main_v130 main_v192 main_v193 addf ]

theorem ops0_sub : (ops0 : List (HloOp τ sig (Elt F))).Forall fun op => op.bufs ⊆ tcRefs τ sig := by
  simp only [List.Forall, unary_bufs_sub, reshape_bufs_sub, nullary_bufs_sub, binary_bufs_sub, ternary_bufs_sub, and_self]

theorem ops0_fresh : (ops0 : List (HloOp τ sig (Elt F))).Forall fun op => op.fresh = ∅ := by
  repeat' first | exact rfl | refine ⟨?_, ?_⟩

theorem ops1_sub : (ops1 : List (HloOp τ sig (Elt F))).Forall fun op => op.bufs ⊆ tcRefs τ sig := by
  simp only [List.Forall, unary_bufs_sub, reshape_bufs_sub, nullary_bufs_sub, binary_bufs_sub, ternary_bufs_sub, and_self]

theorem ops1_fresh : (ops1 : List (HloOp τ sig (Elt F))).Forall fun op => op.fresh = ∅ := by
  repeat' first | exact rfl | refine ⟨?_, ?_⟩

theorem ops2_sub : (ops2 : List (HloOp τ sig (Elt F))).Forall fun op => op.bufs ⊆ tcRefs τ sig := by
  simp only [List.Forall, unary_bufs_sub, reshape_bufs_sub, nullary_bufs_sub, binary_bufs_sub, ternary_bufs_sub, and_self]

theorem ops2_fresh : (ops2 : List (HloOp τ sig (Elt F))).Forall fun op => op.fresh = ∅ := by
  repeat' first | exact rfl | refine ⟨?_, ?_⟩

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 16384 in
set_option maxHeartbeats 8000000 in
theorem main_eq (c : Dev nD) : main (F := F) c = seq (ops0 ++ ops1 ++ ops2) := by
  rw [seq_append, seq_append]
  simp only [main, main_part0, main_part1, main_part2, main_part3, fn_var.body, fn_where.body, fn_relu.body, seq,
    bind_assoc, pure_bind]

theorem ops_sub : (ops0 ++ ops1 ++ ops2 : List (HloOp τ sig (Elt F))).Forall fun op => op.bufs ⊆ tcRefs τ sig :=
  List.forall_iff_forall_mem.2 fun op h => by
    rcases List.mem_append.1 h with h | h
    · rcases List.mem_append.1 h with h | h
      · exact List.forall_iff_forall_mem.1 ops0_sub op h
      · exact List.forall_iff_forall_mem.1 ops1_sub op h
    · exact List.forall_iff_forall_mem.1 ops2_sub op h

theorem ops_fresh : ∀ op ∈ (ops0 ++ ops1 ++ ops2 : List (HloOp τ sig (Elt F))), op.fresh = ∅ := fun op h => by
  rcases List.mem_append.1 h with h | h
  · rcases List.mem_append.1 h with h | h
    · exact List.forall_iff_forall_mem.1 ops0_fresh op h
    · exact List.forall_iff_forall_mem.1 ops1_fresh op h
  · exact List.forall_iff_forall_mem.1 ops2_fresh op h

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops0 ++ ops1 ++ ops2) (launchContents m d) (Proc.devRef .tc b) :=
  run_seq scopedRefs_eq scopedSems_eq defs main (fun _ => ops0 ++ ops1 ++ ops2) main_eq (fun _ => ops_sub) m ρ
    (fun _ => ops_fresh)

end Cert.ReferenceIdeal.RRun

end
-- ==== Proof.ROut.lean ====
import proofs.«404768_j10737418240832_1_alg».proof.ReferenceIdeal
import proofs.«404768_j10737418240832_1_alg».proof.Proof.Gen.ReferenceIdeal
import Idealize.ShloMosaic.Lib.StableHlo.Run
import proofs.«404768_j10737418240832_1_alg».proof.Proof.ROps
import proofs.«404768_j10737418240832_1_alg».proof.Proof.RTerm

noncomputable section

namespace Cert.ReferenceIdeal.RRun

open Cert.ReferenceIdeal Cert.ReferenceIdeal.Gen Idealize.ShloMosaic Idealize.ShloMosaic.TcCoe Idealize.SL.Sem Idealize.ShloMosaic.StableHlo
open Cert.ReferenceIdeal.RTerm

variable {F : FTy → Type} [FloatOps F]

abbrev row0 (ei : RTerm.I F S2x1600000) : RTerm.I F S1600000 :=
  shapeCast S1600000 (extractStridedSlice S1x1600000 ![0, 0] ei slices_S2x1600000_S1x1600000_0_0) shapeCasts_S1x1600000_S1600000
abbrev row1 (ei : RTerm.I F S2x1600000) : RTerm.I F S1600000 :=
  shapeCast S1600000 (extractStridedSlice S1x1600000 ![1, 0] ei slices_S2x1600000_S1x1600000_1_0) shapeCasts_S1x1600000_S1600000

abbrev slabM (l : Nat) (W : RTerm.A F S3x64x64) (h : S3x64x64.Slices ![l, 0, 0] S1x64x64) : RTerm.A F S64x64 :=
  shapeCast S64x64 (extractStridedSlice S1x64x64 ![l, 0, 0] W h) shapeCasts_S1x64x64_S64x64
abbrev slabV (l : Nat) (b : RTerm.A F S3x64) (h : S3x64.Slices ![l, 0] S1x64) : RTerm.A F S64 :=
  shapeCast S64 (extractStridedSlice S1x64 ![l, 0] b h) shapeCasts_S1x64_S64
abbrev slabO (l : Nat) (W : RTerm.A F S3x64x10) (h : S3x64x10.Slices ![l, 0, 0] S1x64x10) : RTerm.A F S64x10 :=
  shapeCast S64x10 (extractStridedSlice S1x64x10 ![l, 0, 0] W h) shapeCasts_S1x64x10_S64x10
abbrev slabB (l : Nat) (b : RTerm.A F S3x10) (h : S3x10.Slices ![l, 0] S1x10) : RTerm.A F S10 :=
  shapeCast S10 (extractStridedSlice S1x10 ![l, 0] b h) shapeCasts_S1x10_S10

theorem v1_eq (V : Valuation τ sig (Elt F)) :
    after ops0 V (Proc.devRef .tc main_v1) = row0 (V (Proc.devRef .tc main_arg1)) := by
  after_results_simp
  rfl

theorem v3_eq (V : Valuation τ sig (Elt F)) :
    after ops0 V (Proc.devRef .tc main_v3) = row1 (V (Proc.devRef .tc main_arg1)) := by
  after_results_simp
  rfl

attribute [local irreducible] Host.gather Host.scatterAdd Host.reduceAdd in

set_option maxHeartbeats 4000000 in
set_option maxRecDepth 8192 in
theorem x1_eq (V : Valuation τ sig (Elt F)) :
    after ops0 V (Proc.devRef .tc main_v55)
      = xoutT (V (Proc.devRef .tc main_arg0)) (row0 (V (Proc.devRef .tc main_arg1))) (row1 (V (Proc.devRef .tc main_arg1)))
          (slabM 0 (V (Proc.devRef .tc main_arg3)) slices_S3x64x64_S1x64x64_0_0_0) (slabV 0 (V (Proc.devRef .tc main_arg4)) slices_S3x64_S1x64_0_0)
          (slabV 0 (V (Proc.devRef .tc main_arg5)) slices_S3x64_S1x64_0_0) (slabV 0 (V (Proc.devRef .tc main_arg6)) slices_S3x64_S1x64_0_0)
          (slabM 0 (V (Proc.devRef .tc main_arg7)) slices_S3x64x64_S1x64x64_0_0_0) (slabV 0 (V (Proc.devRef .tc main_arg8)) slices_S3x64_S1x64_0_0) := by
  after_results_simp
  rfl

attribute [local irreducible] Host.gather Host.scatterAdd Host.reduceAdd in

set_option maxHeartbeats 4000000 in
set_option maxRecDepth 8192 in
theorem s1_eq (V : Valuation τ sig (Elt F)) :
    after ops0 V (Proc.devRef .tc main_v67)
      = scoreT (after ops0 V (Proc.devRef .tc main_v55)) (V (Proc.devRef .tc main_arg2))
          (slabO 0 (V (Proc.devRef .tc main_arg9)) slices_S3x64x10_S1x64x10_0_0_0) (slabB 0 (V (Proc.devRef .tc main_arg10)) slices_S3x10_S1x10_0_0)
          (broadcastInDim S128x10 ![] bcast_S_S128x10 (constant S_ .f32 0x00000000#32)) := by
  after_results_simp
  rfl

set_option maxHeartbeats 4000000 in
theorem args0 (V : Valuation τ sig (Elt F)) :
    after ops0 V (Proc.devRef .tc main_arg0) = V (Proc.devRef .tc main_arg0)
      ∧ after ops0 V (Proc.devRef .tc main_arg1) = V (Proc.devRef .tc main_arg1)
      ∧ after ops0 V (Proc.devRef .tc main_arg2) = V (Proc.devRef .tc main_arg2)
      ∧ after ops0 V (Proc.devRef .tc main_arg3) = V (Proc.devRef .tc main_arg3)
      ∧ after ops0 V (Proc.devRef .tc main_arg4) = V (Proc.devRef .tc main_arg4)
      ∧ after ops0 V (Proc.devRef .tc main_arg5) = V (Proc.devRef .tc main_arg5)
      ∧ after ops0 V (Proc.devRef .tc main_arg6) = V (Proc.devRef .tc main_arg6)
      ∧ after ops0 V (Proc.devRef .tc main_arg7) = V (Proc.devRef .tc main_arg7)
      ∧ after ops0 V (Proc.devRef .tc main_arg8) = V (Proc.devRef .tc main_arg8)
      ∧ after ops0 V (Proc.devRef .tc main_arg9) = V (Proc.devRef .tc main_arg9)
      ∧ after ops0 V (Proc.devRef .tc main_arg10) = V (Proc.devRef .tc main_arg10) := by
  refine ⟨?_, ?_, ?_, ?_, ?_, ?_, ?_, ?_, ?_, ?_, ?_⟩ <;> after_results_simp

attribute [local irreducible] Host.gather Host.scatterAdd Host.reduceAdd in

set_option maxHeartbeats 4000000 in
set_option maxRecDepth 8192 in
theorem x2_eq (V : Valuation τ sig (Elt F)) :
    after ops1 V (Proc.devRef .tc main_v118)
      = xoutT (V (Proc.devRef .tc main_v55)) (V (Proc.devRef .tc main_v1)) (V (Proc.devRef .tc main_v3))
          (slabM 1 (V (Proc.devRef .tc main_arg3)) slices_S3x64x64_S1x64x64_1_0_0) (slabV 1 (V (Proc.devRef .tc main_arg4)) slices_S3x64_S1x64_1_0)
          (slabV 1 (V (Proc.devRef .tc main_arg5)) slices_S3x64_S1x64_1_0) (slabV 1 (V (Proc.devRef .tc main_arg6)) slices_S3x64_S1x64_1_0)
          (slabM 1 (V (Proc.devRef .tc main_arg7)) slices_S3x64x64_S1x64x64_1_0_0) (slabV 1 (V (Proc.devRef .tc main_arg8)) slices_S3x64_S1x64_1_0) := by
  after_results_simp
  rfl

attribute [local irreducible] Host.gather Host.scatterAdd Host.reduceAdd in

set_option maxHeartbeats 4000000 in
set_option maxRecDepth 8192 in
theorem s2_eq (V : Valuation τ sig (Elt F)) :
    after ops1 V (Proc.devRef .tc main_v130)
      = scoreT (after ops1 V (Proc.devRef .tc main_v118)) (V (Proc.devRef .tc main_arg2))
          (slabO 1 (V (Proc.devRef .tc main_arg9)) slices_S3x64x10_S1x64x10_1_0_0) (slabB 1 (V (Proc.devRef .tc main_arg10)) slices_S3x10_S1x10_1_0)
          (V (Proc.devRef .tc main_v67)) := by
  after_results_simp
  rfl

set_option maxHeartbeats 4000000 in
theorem keep1 (V : Valuation τ sig (Elt F)) :
    after ops1 V (Proc.devRef .tc main_v1) = V (Proc.devRef .tc main_v1)
      ∧ after ops1 V (Proc.devRef .tc main_v3) = V (Proc.devRef .tc main_v3)
      ∧ after ops1 V (Proc.devRef .tc main_arg0) = V (Proc.devRef .tc main_arg0)
      ∧ after ops1 V (Proc.devRef .tc main_arg1) = V (Proc.devRef .tc main_arg1)
      ∧ after ops1 V (Proc.devRef .tc main_arg2) = V (Proc.devRef .tc main_arg2)
      ∧ after ops1 V (Proc.devRef .tc main_arg3) = V (Proc.devRef .tc main_arg3)
      ∧ after ops1 V (Proc.devRef .tc main_arg4) = V (Proc.devRef .tc main_arg4)
      ∧ after ops1 V (Proc.devRef .tc main_arg5) = V (Proc.devRef .tc main_arg5)
      ∧ after ops1 V (Proc.devRef .tc main_arg6) = V (Proc.devRef .tc main_arg6)
      ∧ after ops1 V (Proc.devRef .tc main_arg7) = V (Proc.devRef .tc main_arg7)
      ∧ after ops1 V (Proc.devRef .tc main_arg8) = V (Proc.devRef .tc main_arg8)
      ∧ after ops1 V (Proc.devRef .tc main_arg9) = V (Proc.devRef .tc main_arg9)
      ∧ after ops1 V (Proc.devRef .tc main_arg10) = V (Proc.devRef .tc main_arg10) := by
  refine ⟨?_, ?_, ?_, ?_, ?_, ?_, ?_, ?_, ?_, ?_, ?_, ?_, ?_⟩ <;> after_results_simp

attribute [local irreducible] Host.gather Host.scatterAdd Host.reduceAdd in

set_option maxHeartbeats 4000000 in
set_option maxRecDepth 8192 in
theorem x3_eq (V : Valuation τ sig (Elt F)) :
    after ops2 V (Proc.devRef .tc main_v181)
      = xoutT (V (Proc.devRef .tc main_v118)) (V (Proc.devRef .tc main_v1)) (V (Proc.devRef .tc main_v3))
          (slabM 2 (V (Proc.devRef .tc main_arg3)) slices_S3x64x64_S1x64x64_2_0_0) (slabV 2 (V (Proc.devRef .tc main_arg4)) slices_S3x64_S1x64_2_0)
          (slabV 2 (V (Proc.devRef .tc main_arg5)) slices_S3x64_S1x64_2_0) (slabV 2 (V (Proc.devRef .tc main_arg6)) slices_S3x64_S1x64_2_0)
          (slabM 2 (V (Proc.devRef .tc main_arg7)) slices_S3x64x64_S1x64x64_2_0_0) (slabV 2 (V (Proc.devRef .tc main_arg8)) slices_S3x64_S1x64_2_0) := by
  after_results_simp
  rfl

attribute [local irreducible] Host.gather Host.scatterAdd Host.reduceAdd in

set_option maxHeartbeats 4000000 in
set_option maxRecDepth 8192 in
theorem s3_eq (V : Valuation τ sig (Elt F)) :
    after ops2 V (Proc.devRef .tc main_v193)
      = scoreT (after ops2 V (Proc.devRef .tc main_v181)) (V (Proc.devRef .tc main_arg2))
          (slabO 2 (V (Proc.devRef .tc main_arg9)) slices_S3x64x10_S1x64x10_2_0_0) (slabB 2 (V (Proc.devRef .tc main_arg10)) slices_S3x10_S1x10_2_0)
          (V (Proc.devRef .tc main_v130)) := by
  after_results_simp
  rfl

set_option maxHeartbeats 4000000 in
theorem args2 (V : Valuation τ sig (Elt F)) :
    after ops2 V (Proc.devRef .tc main_arg0) = V (Proc.devRef .tc main_arg0)
      ∧ after ops2 V (Proc.devRef .tc main_arg1) = V (Proc.devRef .tc main_arg1)
      ∧ after ops2 V (Proc.devRef .tc main_arg2) = V (Proc.devRef .tc main_arg2)
      ∧ after ops2 V (Proc.devRef .tc main_arg3) = V (Proc.devRef .tc main_arg3)
      ∧ after ops2 V (Proc.devRef .tc main_arg4) = V (Proc.devRef .tc main_arg4)
      ∧ after ops2 V (Proc.devRef .tc main_arg5) = V (Proc.devRef .tc main_arg5)
      ∧ after ops2 V (Proc.devRef .tc main_arg6) = V (Proc.devRef .tc main_arg6)
      ∧ after ops2 V (Proc.devRef .tc main_arg7) = V (Proc.devRef .tc main_arg7)
      ∧ after ops2 V (Proc.devRef .tc main_arg8) = V (Proc.devRef .tc main_arg8)
      ∧ after ops2 V (Proc.devRef .tc main_arg9) = V (Proc.devRef .tc main_arg9)
      ∧ after ops2 V (Proc.devRef .tc main_arg10) = V (Proc.devRef .tc main_arg10) := by
  refine ⟨?_, ?_, ?_, ?_, ?_, ?_, ?_, ?_, ?_, ?_, ?_⟩ <;> after_results_simp

section Net
variable (x : RTerm.A F S100000x64) (ei : RTerm.I F S2x1600000) (b : RTerm.I F S100000) (W1 : RTerm.A F S3x64x64)
  (b1 g bt : RTerm.A F S3x64) (W2 : RTerm.A F S3x64x64) (b2 : RTerm.A F S3x64) (Wo : RTerm.A F S3x64x10) (bo : RTerm.A F S3x10)

abbrev netX1 : RTerm.A F S100000x64 :=
  xoutT x (row0 ei) (row1 ei) (slabM 0 W1 slices_S3x64x64_S1x64x64_0_0_0) (slabV 0 b1 slices_S3x64_S1x64_0_0)
    (slabV 0 g slices_S3x64_S1x64_0_0) (slabV 0 bt slices_S3x64_S1x64_0_0) (slabM 0 W2 slices_S3x64x64_S1x64x64_0_0_0)
    (slabV 0 b2 slices_S3x64_S1x64_0_0)
abbrev netX2 : RTerm.A F S100000x64 :=
  xoutT (netX1 x ei W1 b1 g bt W2 b2) (row0 ei) (row1 ei) (slabM 1 W1 slices_S3x64x64_S1x64x64_1_0_0)
    (slabV 1 b1 slices_S3x64_S1x64_1_0) (slabV 1 g slices_S3x64_S1x64_1_0) (slabV 1 bt slices_S3x64_S1x64_1_0)
    (slabM 1 W2 slices_S3x64x64_S1x64x64_1_0_0) (slabV 1 b2 slices_S3x64_S1x64_1_0)
abbrev netX3 : RTerm.A F S100000x64 :=
  xoutT (netX2 x ei W1 b1 g bt W2 b2) (row0 ei) (row1 ei) (slabM 2 W1 slices_S3x64x64_S1x64x64_2_0_0)
    (slabV 2 b1 slices_S3x64_S1x64_2_0) (slabV 2 g slices_S3x64_S1x64_2_0) (slabV 2 bt slices_S3x64_S1x64_2_0)
    (slabM 2 W2 slices_S3x64x64_S1x64x64_2_0_0) (slabV 2 b2 slices_S3x64_S1x64_2_0)

abbrev netS1 : RTerm.A F S128x10 :=
  scoreT (netX1 x ei W1 b1 g bt W2 b2) b (slabO 0 Wo slices_S3x64x10_S1x64x10_0_0_0) (slabB 0 bo slices_S3x10_S1x10_0_0)
    (broadcastInDim S128x10 ![] bcast_S_S128x10 (constant S_ .f32 0x00000000#32))
abbrev netS2 : RTerm.A F S128x10 :=
  scoreT (netX2 x ei W1 b1 g bt W2 b2) b (slabO 1 Wo slices_S3x64x10_S1x64x10_1_0_0) (slabB 1 bo slices_S3x10_S1x10_1_0)
    (netS1 x ei b W1 b1 g bt W2 b2 Wo bo)
abbrev netS3 : RTerm.A F S128x10 :=
  scoreT (netX3 x ei W1 b1 g bt W2 b2) b (slabO 2 Wo slices_S3x64x10_S1x64x10_2_0_0) (slabB 2 bo slices_S3x10_S1x10_2_0)
    (netS2 x ei b W1 b1 g bt W2 b2 Wo bo)

end Net

theorem result_eq (V : Valuation τ sig (Elt F)) :
    after (ops0 ++ ops1 ++ ops2) V (Proc.devRef .tc main_v193)
      = netS3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_append, after_append]
  obtain ⟨a0, a1, a2, a3, a4, a5, a6, a7, a8, a9, a10⟩ := args0 V
  have e1 := v1_eq V
  have e3 := v3_eq V
  have e55 := x1_eq V
  have e67 := s1_eq V
  rw [e55] at e67
  generalize after ops0 V = V1 at *
  obtain ⟨k1, k3, b0, b1, b2, b3, b4, b5, b6, b7, b8, b9, b10⟩ := keep1 V1
  have e118 := x2_eq V1
  have e130 := s2_eq V1
  rw [e55, e1, e3, a3, a4, a5, a6, a7, a8] at e118
  rw [e118, a2, a9, a10, e67] at e130
  rw [e1] at k1
  rw [e3] at k3
  rw [a2] at b2
  rw [a3] at b3
  rw [a4] at b4
  rw [a5] at b5
  rw [a6] at b6
  rw [a7] at b7
  rw [a8] at b8
  rw [a9] at b9
  rw [a10] at b10
  generalize after ops1 V1 = V2 at *
  have e181 := x3_eq V2
  have e193 := s3_eq V2
  rw [e118, k1, k3, b3, b4, b5, b6, b7, b8] at e181
  rw [e181, b2, b9, b10, e130] at e193
  exact e193

theorem args_eq (V : Valuation τ sig (Elt F)) :
    after (ops0 ++ ops1 ++ ops2) V (Proc.devRef .tc main_arg0) = V (Proc.devRef .tc main_arg0)
      ∧ after (ops0 ++ ops1 ++ ops2) V (Proc.devRef .tc main_arg1) = V (Proc.devRef .tc main_arg1)
      ∧ after (ops0 ++ ops1 ++ ops2) V (Proc.devRef .tc main_arg2) = V (Proc.devRef .tc main_arg2)
      ∧ after (ops0 ++ ops1 ++ ops2) V (Proc.devRef .tc main_arg3) = V (Proc.devRef .tc main_arg3)
      ∧ after (ops0 ++ ops1 ++ ops2) V (Proc.devRef .tc main_arg4) = V (Proc.devRef .tc main_arg4)
      ∧ after (ops0 ++ ops1 ++ ops2) V (Proc.devRef .tc main_arg5) = V (Proc.devRef .tc main_arg5)
      ∧ after (ops0 ++ ops1 ++ ops2) V (Proc.devRef .tc main_arg6) = V (Proc.devRef .tc main_arg6)
      ∧ after (ops0 ++ ops1 ++ ops2) V (Proc.devRef .tc main_arg7) = V (Proc.devRef .tc main_arg7)
      ∧ after (ops0 ++ ops1 ++ ops2) V (Proc.devRef .tc main_arg8) = V (Proc.devRef .tc main_arg8)
      ∧ after (ops0 ++ ops1 ++ ops2) V (Proc.devRef .tc main_arg9) = V (Proc.devRef .tc main_arg9)
      ∧ after (ops0 ++ ops1 ++ ops2) V (Proc.devRef .tc main_arg10) = V (Proc.devRef .tc main_arg10) := by
  simp only [after_append]
  obtain ⟨a0, a1, a2, a3, a4, a5, a6, a7, a8, a9, a10⟩ := args0 V
  obtain ⟨-, -, b0, b1, b2, b3, b4, b5, b6, b7, b8, b9, b10⟩ := keep1 (after ops0 V)
  obtain ⟨c0, c1, c2, c3, c4, c5, c6, c7, c8, c9, c10⟩ := args2 (after ops1 (after ops0 V))
  exact ⟨c0.trans (b0.trans a0), c1.trans (b1.trans a1), c2.trans (b2.trans a2), c3.trans (b3.trans a3),
    c4.trans (b4.trans a4), c5.trans (b5.trans a5), c6.trans (b6.trans a6), c7.trans (b7.trans a7),
    c8.trans (b8.trans a8), c9.trans (b9.trans a9), c10.trans (b10.trans a10)⟩

end Cert.ReferenceIdeal.RRun

end
-- ==== Proof.RVal.lean ====
import proofs.«404768_j10737418240832_1_alg».proof.ReferenceIdeal
import proofs.«404768_j10737418240832_1_alg».proof.Proof.Gen.ReferenceIdeal
import proofs.«404768_j10737418240832_1_alg».proof.Proof.Spec
import proofs.«404768_j10737418240832_1_alg».proof.Proof.RTerm
import proofs.«404768_j10737418240832_1_alg».proof.Proof.RRead
import proofs.«404768_j10737418240832_1_alg».proof.Proof.ROps
import proofs.«404768_j10737418240832_1_alg».proof.Proof.ROut
import Idealize.ShloMosaic.PureOps.Ideal.Laws
import Idealize.ShloMosaic.Lib.ValueIdx
import Idealize.ShloMosaic.Lib.IdealHost
import Idealize.ShloMosaic.Lib.StableHlo.Run

noncomputable section

namespace Cert.ReferenceIdeal.RVal

open Idealize.ShloMosaic Idealize.SL.Sem Idealize.ShloMosaic.ValueIdx Idealize.ShloMosaic.StableHlo Cert.Spec Cert.ReferenceIdeal.RTerm

section Layers

variable [Facts]
open Facts₀ Facts

theorem zero_score :
    broadcastInDim S128x10 ![] bcast_S_S128x10 (constant (F := Ideal) S_ .f32 0x00000000#32) = mk (fun _ _ => 0) := by
  funext i
  rw [broadcastInDim_scalar_apply, constant_apply, Ideal.ofBits_zero_f32]
  rfl

theorem layer_x (l : Fin 3) (o3 : Fin 3 → Nat) (ho3 : o3 = ![l.val, 0, 0]) (o2 : Fin 2 → Nat) (ho2 : o2 = ![l.val, 0])
    (hW : S3x64x64.Slices o3 S1x64x64) (hb : S3x64.Slices o2 S1x64)
    (ei : I Ideal S2x1600000) (v1 v3 : I Ideal S1600000)
    (hv1 : (fun e => v1 (ix1 e)) = srcOf ei) (hv3 : (fun e => v3 (ix1 e)) = dstOf ei)
    (W1 : A Ideal S3x64x64) (b1 g bt : A Ideal S3x64) (W2 : A Ideal S3x64x64) (b2 : A Ideal S3x64)
    (Wo : A Ideal S3x64x10) (bo : A Ideal S3x10) (X : Tab 100000 64) :
    xoutT (F := Ideal) (mk X) v1 v3
        (shapeCast S64x64 (extractStridedSlice S1x64x64 o3 W1 hW) shapeCasts_S1x64x64_S64x64)
        (shapeCast S64 (extractStridedSlice S1x64 o2 b1 hb) shapeCasts_S1x64_S64)
        (shapeCast S64 (extractStridedSlice S1x64 o2 g hb) shapeCasts_S1x64_S64)
        (shapeCast S64 (extractStridedSlice S1x64 o2 bt hb) shapeCasts_S1x64_S64)
        (shapeCast S64x64 (extractStridedSlice S1x64x64 o3 W2 hW) shapeCasts_S1x64x64_S64x64)
        (shapeCast S64 (extractStridedSlice S1x64 o2 b2 hb) shapeCasts_S1x64_S64)
      = mk (nextX varR (paramsOf l W1 b1 g bt W2 b2 Wo bo) (srcOf ei) (dstOf ei) X) := by
  rw [xoutT_eq (Wo := (paramsOf l W1 b1 g bt W2 b2 Wo bo).Wo) (bo := (paramsOf l W1 b1 g bt W2 b2 Wo bo).bo),
    hv1, hv3, tab_mk, slab64x64 l o3 ho3 hW W1, slab64x64 l o3 ho3 hW W2]
  simp only [slab64 l o2 ho2 hb]
  rfl

theorem layer_s (l : Fin 3) (o3 : Fin 3 → Nat) (ho3 : o3 = ![l.val, 0, 0]) (o2 : Fin 2 → Nat) (ho2 : o2 = ![l.val, 0])
    (hWo : S3x64x10.Slices o3 S1x64x10) (hbo : S3x10.Slices o2 S1x10) (batch : I Ideal S100000)
    (W1 : A Ideal S3x64x64) (b1 g bt : A Ideal S3x64) (W2 : A Ideal S3x64x64) (b2 : A Ideal S3x64)
    (Wo : A Ideal S3x64x10) (bo : A Ideal S3x10) (X : Tab 100000 64) (s : Tab 128 10) :
    scoreT (F := Ideal) (mk X) batch
        (shapeCast S64x10 (extractStridedSlice S1x64x10 o3 Wo hWo) shapeCasts_S1x64x10_S64x10)
        (shapeCast S10 (extractStridedSlice S1x10 o2 bo hbo) shapeCasts_S1x10_S10) (mk s)
      = mk (nextScore (paramsOf l W1 b1 g bt W2 b2 Wo bo) (batchOf batch) X s) := by
  rw [scoreT_eq _ _ _ _ _ (paramsOf l W1 b1 g bt W2 b2 Wo bo) (slab64x10 l o3 ho3 hWo Wo).symm
    (funext fun o => (slab10 l o2 ho2 hbo bo o).symm), tab_mk, tab_mk]
  rfl

theorem net_eq (x : A Ideal S100000x64) (ei : I Ideal S2x1600000) (batch : I Ideal S100000)
    (W1 : A Ideal S3x64x64) (b1 g bt : A Ideal S3x64) (W2 : A Ideal S3x64x64) (b2 : A Ideal S3x64)
    (Wo : A Ideal S3x64x10) (bo : A Ideal S3x10)
    (v1 v3 : I Ideal S1600000)
    (hv1 : v1 = (shapeCast S1600000 (extractStridedSlice S1x1600000 ![0, 0] ei slices_S2x1600000_S1x1600000_0_0) shapeCasts_S1x1600000_S1600000))
    (hv3 : v3 = (shapeCast S1600000 (extractStridedSlice S1x1600000 ![1, 0] ei slices_S2x1600000_S1x1600000_1_0) shapeCasts_S1x1600000_S1600000))
    (x1 x2 x3 : A Ideal S100000x64) (s0 s1 s2 s3 : A Ideal S128x10)
    (h1 : x1 = xoutT (F := Ideal) x v1 v3
        (shapeCast S64x64 (extractStridedSlice S1x64x64 ![0, 0, 0] W1 slices_S3x64x64_S1x64x64_0_0_0) shapeCasts_S1x64x64_S64x64)
        (shapeCast S64 (extractStridedSlice S1x64 ![0, 0] b1 slices_S3x64_S1x64_0_0) shapeCasts_S1x64_S64)
        (shapeCast S64 (extractStridedSlice S1x64 ![0, 0] g slices_S3x64_S1x64_0_0) shapeCasts_S1x64_S64)
        (shapeCast S64 (extractStridedSlice S1x64 ![0, 0] bt slices_S3x64_S1x64_0_0) shapeCasts_S1x64_S64)
        (shapeCast S64x64 (extractStridedSlice S1x64x64 ![0, 0, 0] W2 slices_S3x64x64_S1x64x64_0_0_0) shapeCasts_S1x64x64_S64x64)
        (shapeCast S64 (extractStridedSlice S1x64 ![0, 0] b2 slices_S3x64_S1x64_0_0) shapeCasts_S1x64_S64))
    (h2 : x2 = xoutT (F := Ideal) x1 v1 v3
        (shapeCast S64x64 (extractStridedSlice S1x64x64 ![1, 0, 0] W1 slices_S3x64x64_S1x64x64_1_0_0) shapeCasts_S1x64x64_S64x64)
        (shapeCast S64 (extractStridedSlice S1x64 ![1, 0] b1 slices_S3x64_S1x64_1_0) shapeCasts_S1x64_S64)
        (shapeCast S64 (extractStridedSlice S1x64 ![1, 0] g slices_S3x64_S1x64_1_0) shapeCasts_S1x64_S64)
        (shapeCast S64 (extractStridedSlice S1x64 ![1, 0] bt slices_S3x64_S1x64_1_0) shapeCasts_S1x64_S64)
        (shapeCast S64x64 (extractStridedSlice S1x64x64 ![1, 0, 0] W2 slices_S3x64x64_S1x64x64_1_0_0) shapeCasts_S1x64x64_S64x64)
        (shapeCast S64 (extractStridedSlice S1x64 ![1, 0] b2 slices_S3x64_S1x64_1_0) shapeCasts_S1x64_S64))
    (h3 : x3 = xoutT (F := Ideal) x2 v1 v3
        (shapeCast S64x64 (extractStridedSlice S1x64x64 ![2, 0, 0] W1 slices_S3x64x64_S1x64x64_2_0_0) shapeCasts_S1x64x64_S64x64)
        (shapeCast S64 (extractStridedSlice S1x64 ![2, 0] b1 slices_S3x64_S1x64_2_0) shapeCasts_S1x64_S64)
        (shapeCast S64 (extractStridedSlice S1x64 ![2, 0] g slices_S3x64_S1x64_2_0) shapeCasts_S1x64_S64)
        (shapeCast S64 (extractStridedSlice S1x64 ![2, 0] bt slices_S3x64_S1x64_2_0) shapeCasts_S1x64_S64)
        (shapeCast S64x64 (extractStridedSlice S1x64x64 ![2, 0, 0] W2 slices_S3x64x64_S1x64x64_2_0_0) shapeCasts_S1x64x64_S64x64)
        (shapeCast S64 (extractStridedSlice S1x64 ![2, 0] b2 slices_S3x64_S1x64_2_0) shapeCasts_S1x64_S64))
    (hs0 : s0 = broadcastInDim S128x10 ![] bcast_S_S128x10 (constant (F := Ideal) S_ .f32 0x00000000#32))
    (hs1 : s1 = scoreT (F := Ideal) x1 batch
        (shapeCast S64x10 (extractStridedSlice S1x64x10 ![0, 0, 0] Wo slices_S3x64x10_S1x64x10_0_0_0) shapeCasts_S1x64x10_S64x10)
        (shapeCast S10 (extractStridedSlice S1x10 ![0, 0] bo slices_S3x10_S1x10_0_0) shapeCasts_S1x10_S10) s0)
    (hs2 : s2 = scoreT (F := Ideal) x2 batch
        (shapeCast S64x10 (extractStridedSlice S1x64x10 ![1, 0, 0] Wo slices_S3x64x10_S1x64x10_1_0_0) shapeCasts_S1x64x10_S64x10)
        (shapeCast S10 (extractStridedSlice S1x10 ![1, 0] bo slices_S3x10_S1x10_1_0) shapeCasts_S1x10_S10) s1)
    (hs3 : s3 = scoreT (F := Ideal) x3 batch
        (shapeCast S64x10 (extractStridedSlice S1x64x10 ![2, 0, 0] Wo slices_S3x64x10_S1x64x10_2_0_0) shapeCasts_S1x64x10_S64x10)
        (shapeCast S10 (extractStridedSlice S1x10 ![2, 0] bo slices_S3x10_S1x10_2_0) shapeCasts_S1x10_S10) s2) :
    s3 = scoreOf varR x ei batch W1 b1 g bt W2 b2 Wo bo := by
  have e1 : (fun e => v1 (ix1 e)) = srcOf ei := by
    rw [hv1]; exact funext fun e => edgeRow 0 ![0, 0] rfl slices_S2x1600000_S1x1600000_0_0 ei e
  have e3 : (fun e => v3 (ix1 e)) = dstOf ei := by
    rw [hv3]; exact funext fun e => edgeRow 1 ![1, 0] rfl slices_S2x1600000_S1x1600000_1_0 ei e
  have k1 : x1 = mk (nextX varR (paramsOf 0 W1 b1 g bt W2 b2 Wo bo) (srcOf ei) (dstOf ei) (tab x)) := by
    have t := layer_x 0 ![0, 0, 0] rfl ![0, 0] rfl slices_S3x64x64_S1x64x64_0_0_0 slices_S3x64_S1x64_0_0 ei v1 v3 e1 e3 W1 b1 g bt W2 b2 Wo bo (tab x)
    rw [mk_tab] at t
    exact h1.trans t
  have k2 : x2 = mk (nextX varR (paramsOf 1 W1 b1 g bt W2 b2 Wo bo) (srcOf ei) (dstOf ei) (nextX varR (paramsOf 0 W1 b1 g bt W2 b2 Wo bo) (srcOf ei) (dstOf ei) (tab x))) := by
    rw [h2, k1]
    exact layer_x 1 ![1, 0, 0] rfl ![1, 0] rfl slices_S3x64x64_S1x64x64_1_0_0 slices_S3x64_S1x64_1_0 ei v1 v3 e1 e3 W1 b1 g bt W2 b2 Wo bo _
  have k3 : x3 = mk (nextX varR (paramsOf 2 W1 b1 g bt W2 b2 Wo bo) (srcOf ei) (dstOf ei) (nextX varR (paramsOf 1 W1 b1 g bt W2 b2 Wo bo) (srcOf ei) (dstOf ei) (nextX varR (paramsOf 0 W1 b1 g bt W2 b2 Wo bo) (srcOf ei) (dstOf ei) (tab x)))) := by
    rw [h3, k2]
    exact layer_x 2 ![2, 0, 0] rfl ![2, 0] rfl slices_S3x64x64_S1x64x64_2_0_0 slices_S3x64_S1x64_2_0 ei v1 v3 e1 e3 W1 b1 g bt W2 b2 Wo bo _
  have z0 : s0 = mk (fun _ _ => 0) := hs0.trans zero_score
  have z1 : s1 = mk (nextScore (paramsOf 0 W1 b1 g bt W2 b2 Wo bo) (batchOf batch) (nextX varR (paramsOf 0 W1 b1 g bt W2 b2 Wo bo) (srcOf ei) (dstOf ei) (tab x)) (fun _ _ => 0)) := by
    rw [hs1, k1, z0]
    exact layer_s 0 ![0, 0, 0] rfl ![0, 0] rfl slices_S3x64x10_S1x64x10_0_0_0 slices_S3x10_S1x10_0_0 batch W1 b1 g bt W2 b2 Wo bo _ _
  have z2 : s2 = mk (nextScore (paramsOf 1 W1 b1 g bt W2 b2 Wo bo) (batchOf batch) (nextX varR (paramsOf 1 W1 b1 g bt W2 b2 Wo bo) (srcOf ei) (dstOf ei) (nextX varR (paramsOf 0 W1 b1 g bt W2 b2 Wo bo) (srcOf ei) (dstOf ei) (tab x))) (nextScore (paramsOf 0 W1 b1 g bt W2 b2 Wo bo) (batchOf batch) (nextX varR (paramsOf 0 W1 b1 g bt W2 b2 Wo bo) (srcOf ei) (dstOf ei) (tab x)) (fun _ _ => 0))) := by
    rw [hs2, k2, z1]
    exact layer_s 1 ![1, 0, 0] rfl ![1, 0] rfl slices_S3x64x10_S1x64x10_1_0_0 slices_S3x10_S1x10_1_0 batch W1 b1 g bt W2 b2 Wo bo _ _
  have z3 : s3 = mk (nextScore (paramsOf 2 W1 b1 g bt W2 b2 Wo bo) (batchOf batch) (nextX varR (paramsOf 2 W1 b1 g bt W2 b2 Wo bo) (srcOf ei) (dstOf ei) (nextX varR (paramsOf 1 W1 b1 g bt W2 b2 Wo bo) (srcOf ei) (dstOf ei) (nextX varR (paramsOf 0 W1 b1 g bt W2 b2 Wo bo) (srcOf ei) (dstOf ei) (tab x)))) (nextScore (paramsOf 1 W1 b1 g bt W2 b2 Wo bo) (batchOf batch) (nextX varR (paramsOf 1 W1 b1 g bt W2 b2 Wo bo) (srcOf ei) (dstOf ei) (nextX varR (paramsOf 0 W1 b1 g bt W2 b2 Wo bo) (srcOf ei) (dstOf ei) (tab x))) (nextScore (paramsOf 0 W1 b1 g bt W2 b2 Wo bo) (batchOf batch) (nextX varR (paramsOf 0 W1 b1 g bt W2 b2 Wo bo) (srcOf ei) (dstOf ei) (tab x)) (fun _ _ => 0)))) := by
    rw [hs3, k3, z2]
    exact layer_s 2 ![2, 0, 0] rfl ![2, 0] rfl slices_S3x64x10_S1x64x10_2_0_0 slices_S3x10_S1x10_2_0 batch W1 b1 g bt W2 b2 Wo bo _ _
  rw [z3]
  rfl

end Layers

-- The reference's last buffer holds the score taken with the two-pass variance.
theorem ref_value (m : (ℓ : Loc nD τ sig) → Buf (Elt Ideal) ℓ) (c : Dev nD) :
    after (RRun.ops0 ++ RRun.ops1 ++ RRun.ops2) (launchContents m c) (Proc.devRef .tc main_v193)
      = Cert.Spec.scoreOf Cert.Spec.varR
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10)) := by
  rw [RRun.result_eq]
  exact net_eq _ _ _ _ _ _ _ _ _ _ _ _ _ rfl rfl _ _ _ _ _ _ _ rfl rfl rfl rfl rfl rfl rfl

theorem args_kept (m : (ℓ : Loc nD τ sig) → Buf (Elt Ideal) ℓ) (c : Dev nD)
    {r : Unit × MemSt nD τ sig (Elt Ideal)}
    (h : ∀ b : Ref sig .tc, r.2.mem ((c.tc : Thread nD τ).loc b)
      = after (RRun.ops0 ++ RRun.ops1 ++ RRun.ops2) (launchContents m c) (Proc.devRef .tc b)) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  obtain ⟨a0, a1, a2, a3, a4, a5, a6, a7, a8, a9, a10⟩ := RRun.args_eq (launchContents m c)
  exact ⟨(h main_arg0).trans a0, (h main_arg1).trans a1, (h main_arg2).trans a2, (h main_arg3).trans a3, (h main_arg4).trans a4, (h main_arg5).trans a5, (h main_arg6).trans a6, (h main_arg7).trans a7, (h main_arg8).trans a8, (h main_arg9).trans a9, (h main_arg10).trans a10⟩

end Cert.ReferenceIdeal.RVal

end
-- ==== Proof.Fin.lean ====
import proofs.«404768_j10737418240832_1_alg».proof.Defs
import proofs.«404768_j10737418240832_1_alg».proof.Proof.Gen.Pre_finite_inputs
import proofs.«404768_j10737418240832_1_alg».proof.Proof.Gen.KernelIdeal
import proofs.«404768_j10737418240832_1_alg».proof.Proof.Spec
import proofs.«404768_j10737418240832_1_alg».proof.Proof.Algebra
import Idealize.ShloMosaic.Lib.ReduceAll
import Idealize.ShloMosaic.Lib.ValueIdx
import Idealize.ShloMosaic.Lib.IdealHost

noncomputable section

namespace Cert.Fin

open Idealize.ShloMosaic Idealize.SL.Sem Idealize.ShloMosaic.ValueIdx Cert.Pre_finite_inputs

def AllReal {S : Shape} (x : S.Idx → EReal) : Prop := ∀ i, ∃ v : ℝ, x i = (v : EReal)

instance : Subsingleton S_.Idx := ⟨fun a b => funext fun d => d.elim0⟩

theorem ofBits_inf : Ideal.ofBits .f32 0x7F800000#32 = (⊤ : EReal) := by simp [Ideal.ofBits, Ideal.ieee]

-- An extended real whose absolute value is below +∞ is a real.
theorem real_of_abs_lt_top (x : EReal) (h : Ideal.cmp .olt (max x (-x)) ⊤ = 1#1) : ∃ v : ℝ, x = (v : EReal) := by
  induction x using EReal.rec with
  | bot => simp [Ideal.cmp] at h
  | coe v => exact ⟨v, rfl⟩
  | top => simp [Ideal.cmp] at h

theorem allReal_of_all {S : Shape} {axes : List (Fin S.rank)} (x : FVec Ideal S .f32)
    (hb : S_.BroadcastsInDim S ![]) (hr : S.ReducesTo axes S_) (hu : 0 < S_.numel)
    (h : Host.reduce IntOp.andi (cmpf .olt (Host.absf x) (broadcastInDim S ![] hb (constant S_ .f32 0x7F800000#32)))
      (constantI S_ 1 1#1) hr hu ix0 = 1#1) : AllReal x := by
  intro i
  have e := Host.reduce_andi_all _ _ hr hu ix0 h i
  rw [cmpf_apply, broadcastInDim_scalar_apply, constant_apply, ofBits_inf] at e
  exact real_of_abs_lt_top (x i) e

theorem andi_eq_one_at {s : Shape} (a b : IVec s 1) (i : s.Idx) :
    andi a b i = 1#1 ↔ a i = 1#1 ∧ b i = 1#1 := by
  show IntOp.andi (a i) (b i) = 1#1 ↔ _
  exact IntOp.andi_eq_one

theorem allReal_of_fn (a0 : FVec Ideal S100000x64 .f32) (a1 : IVec S2x1600000 32) (a2 : IVec S100000 32)
    (a3 : FVec Ideal S3x64x64 .f32) (a4 a5 a6 : FVec Ideal S3x64 .f32) (a7 : FVec Ideal S3x64x64 .f32)
    (a8 : FVec Ideal S3x64 .f32) (a9 : FVec Ideal S3x64x10 .f32) (a10 : FVec Ideal S3x10 .f32)
    (h : Cert.Pre_finite_inputs.fn (F := Ideal) a0 a1 a2 a3 a4 a5 a6 a7 a8 a9 a10 = fun _ => 1#1) :
    AllReal a0 ∧ AllReal a3 ∧ AllReal a4 ∧ AllReal a5 ∧ AllReal a6 ∧ AllReal a7 ∧ AllReal a8 ∧ AllReal a9 ∧ AllReal a10 := by
  have h0 := congrFun h ix0
  dsimp only [fn, fn_part1, fn_part2] at h0
  simp only [andi_eq_one_at] at h0
  obtain ⟨⟨⟨⟨⟨⟨⟨⟨e0, e3⟩, e4⟩, e5⟩, e6⟩, e7⟩, e8⟩, e9⟩, e10⟩ := h0
  exact ⟨allReal_of_all a0 _ _ _ e0, allReal_of_all a3 _ _ _ e3, allReal_of_all a4 _ _ _ e4,
    allReal_of_all a5 _ _ _ e5, allReal_of_all a6 _ _ _ e6, allReal_of_all a7 _ _ _ e7,
    allReal_of_all a8 _ _ _ e8, allReal_of_all a9 _ _ _ e9, allReal_of_all a10 _ _ _ e10⟩

theorem params_real (l : Fin 3) {W1 : Cert.Spec.T3 3 64 64} {b1 g bt : Cert.Spec.Mat 3 64} {W2 : Cert.Spec.T3 3 64 64}
    {b2 : Cert.Spec.Mat 3 64} {Wo : Cert.Spec.T3 3 64 10} {bo : Cert.Spec.Mat 3 10}
    (h3 : AllReal W1) (h4 : AllReal b1) (h5 : AllReal g) (h6 : AllReal bt) (h7 : AllReal W2) (h8 : AllReal b2)
    (h9 : AllReal Wo) (h10 : AllReal bo) : (Cert.Spec.paramsOf l W1 b1 g bt W2 b2 Wo bo).Real where
  W1 := fun k j => h3 (ix3 l k j)
  b1 := fun j => h4 (ix2 l j)
  g := fun j => h5 (ix2 l j)
  bt := fun j => h6 (ix2 l j)
  W2 := fun k j => h7 (ix3 l k j)
  b2 := fun j => h8 (ix2 l j)
  Wo := fun k o => h9 (ix3 l k o)
  bo := fun o => h10 (ix2 l o)

theorem isReal_tab {a b : Nat} {x : Cert.Spec.Mat a b} (h : AllReal x) : Cert.Spec.IsReal (Cert.Spec.tab x) :=
  fun r j => h (ix2 r j)

theorem score_eq_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    Cert.Spec.scoreOf Cert.Spec.varK
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
      = Cert.Spec.scoreOf Cert.Spec.varR
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10)) := by
  obtain ⟨h0, h3, h4, h5, h6, h7, h8, h9, h10⟩ := allReal_of_fn _ _ _ _ _ _ _ _ _ _ _ (hpre c)
  unfold Cert.Spec.scoreOf
  rw [Cert.Algebra.score_eq (params_real 0 h3 h4 h5 h6 h7 h8 h9 h10) (params_real 1 h3 h4 h5 h6 h7 h8 h9 h10)
    (params_real 2 h3 h4 h5 h6 h7 h8 h9 h10) _ _ _ (isReal_tab h0)]

end Cert.Fin

end
-- ==== Proof.lean ====
/- Three layers of a graph network: add to each row the rows its incoming edges point from, apply an affine map, normalise each
   column by its mean and variance over all rows, clip at zero, apply a second affine map, and add the per-graph row sums, through
   a last affine map, to a score. The kernel program takes the variance as the mean of squares minus the squared mean, the
   reference as the mean squared deviation: on real entries the two agree, and the precondition makes every entry real. -/
import proofs.«404768_j10737418240832_1_alg».proof.Defs
import proofs.«404768_j10737418240832_1_alg».proof.Proof.Gen.Kernel.Frame
import proofs.«404768_j10737418240832_1_alg».proof.Proof.Gen.KernelIdeal.Frame
import proofs.«404768_j10737418240832_1_alg».proof.Proof.Gen.ReferenceIdeal
import proofs.«404768_j10737418240832_1_alg».proof.Proof.Gen.Pre_finite_inputs
import proofs.«404768_j10737418240832_1_alg».proof.Proof.KRun
import proofs.«404768_j10737418240832_1_alg».proof.Proof.KFold
import proofs.«404768_j10737418240832_1_alg».proof.Proof.RVal
import proofs.«404768_j10737418240832_1_alg».proof.Proof.Fin
import proofs.«404768_j10737418240832_1_alg».proof.Proof.Algebra

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => Cert.ReferenceIdeal.RVal.args_kept m c (h c))
    (Cert.ReferenceIdeal.RRun.run_main (F := Ideal) m ρ)

theorem algebraic : Cert.algebraic_KernelIdeal_ReferenceIdeal := by
  intro m ρ m' ρ' hpre hagree
  refine ⟨fun c => Cert.Spec.scoreOf Cert.Spec.varK (Cert.KernelIdeal.KOut.aX m c) (Cert.KernelIdeal.KOut.aE m c) (Cert.KernelIdeal.KOut.aB m c) (Cert.KernelIdeal.KOut.aW1 m c) (Cert.KernelIdeal.KOut.ab1 m c) (Cert.KernelIdeal.KOut.ag m c) (Cert.KernelIdeal.KOut.abt m c) (Cert.KernelIdeal.KOut.aW2 m c) (Cert.KernelIdeal.KOut.ab2 m c) (Cert.KernelIdeal.KOut.aWo m c) (Cert.KernelIdeal.KOut.abo m c), ?_, ?_⟩
  · exact (θ_run Cert.KernelIdeal.defs _ _).mono
      (fun _ h c => ⟨((h c).1).trans (Cert.KernelIdeal.KOut.kernel_value m ρ c), (h c).2⟩)
      (Cert.KernelIdeal.Gen.run_result (F := Ideal) m ρ)
  · refine (θ_run Cert.ReferenceIdeal.defs _ _).mono (fun _ h c => ⟨?_, Cert.ReferenceIdeal.RVal.args_kept m' c (h c)⟩)
      (Cert.ReferenceIdeal.RRun.run_main (F := Ideal) m' ρ')
    rw [(h c) Cert.ReferenceIdeal.main_v193, Cert.ReferenceIdeal.RVal.ref_value]
    dsimp only
    rw [Cert.Fin.score_eq_of_pre m hpre c, (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
